-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_arg1 : IVec S2x800000 32) (main_v83 : IVec S_ 1) (main_v85 : IVec S800000 32) : IVec S_ 1 :=
  let main_c_32 : IVec S_ 32 := constantI S_ 32 0#32
  let main_v86 : IVec S800000 32 := broadcastInDim S800000 ![] bcast_S_S800000 main_c_32
  let main_v87 : IVec S800000 1 := cmpi .sge main_v85 main_v86
  let main_v88 : IVec S1x800000 32 := (extractStridedSlice S1x800000 ![0, 0] · slices_S2x800000_S1x800000_0_0) main_arg1
  let main_v89 : IVec S800000 32 := shapeCast S800000 main_v88 shapeCasts_S1x800000_S800000
  let main_c_33 : IVec S_ 32 := constantI S_ 32 50000#32
  let main_v90 : IVec S800000 32 := broadcastInDim S800000 ![] bcast_S_S800000 main_c_33
  let main_v91 : IVec S800000 1 := cmpi .slt main_v89 main_v90
  let main_v92 : IVec S800000 1 := andi main_v87 main_v91
  let main_c_34 : IVec S_ 1 := constantI S_ 1 1#1
  let main_v93 : IVec S_ 1 := (fun x v => Host.reduce IntOp.andi x v reducesTo_S800000_S_d0 h_S_) main_v92 main_c_34
  let main_v94 : IVec S_ 1 := andi main_v83 main_v93
  main_v94

def fn_part4 {F : FTy → Type} [FloatOps F] (main_arg1 : IVec S2x800000 32) (main_arg15 : FVec F S64 .f32) (main_arg16 : FVec F S64x128 .f32) (main_arg17 : FVec F S128 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x128 .f32 := Host.absf main_arg16
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : IVec S1x800000 32 := (extractStridedSlice S1x800000 ![0, 0] · slices_S2x800000_S1x800000_0_0) main_arg1
  let main_v85 : IVec S800000 32 := shapeCast S800000 main_v84 shapeCasts_S1x800000_S800000
  fn_part5 (F := F) main_arg1 main_v83 main_v85

def fn_part3 {F : FTy → Type} [FloatOps F] (main_arg1 : IVec S2x800000 32) (main_arg12 : FVec F S64 .f32) (main_arg13 : FVec F S64 .f32) (main_arg14 : FVec F S64x64 .f32) (main_arg15 : FVec F S64 .f32) (main_arg16 : FVec F S64x128 .f32) (main_arg17 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg15 main_arg16 main_arg17 main_v63 main_v67

def fn_part2 {F : FTy → Type} [FloatOps F] (main_arg1 : IVec S2x800000 32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x128 .f32) (main_arg17 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_arg16 main_arg17 main_v48 main_v49 main_v50

def fn_part1 {F : FTy → Type} [FloatOps F] (main_arg1 : IVec S2x800000 32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x128 .f32) (main_arg17 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S1 : Shape := ⟨1, ![1]⟩
abbrev S1x1 : Shape := ⟨2, ![1, 1]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩
abbrev S1x128 : Shape := ⟨2, ![1, 128]⟩

abbrev nBuf : Space → Nat
  | .hbm => 169
  | .vmem => 44
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x128, .f32⟩
  | 17 => ⟨S128, .f32⟩
  | 18 => ⟨S50000, .i32⟩
  | 19 => ⟨S1x800000, .i32⟩
  | 20 => ⟨S800000, .i32⟩
  | 21 => ⟨S850000, .i32⟩
  | 22 => ⟨S1x800000, .i32⟩
  | 23 => ⟨S800000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x64, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S1, .i32⟩
  | 64 => ⟨S_, .i32⟩
  | 65 => ⟨S850000x1, .i32⟩
  | 66 => ⟨S850000x1, .i1⟩
  | 67 => ⟨S1x1, .i32⟩
  | 68 => ⟨S850000x1, .i32⟩
  | 69 => ⟨S850000x1, .i1⟩
  | 70 => ⟨S850000x1, .i1⟩
  | 71 => ⟨S_, .i1⟩
  | 72 => ⟨S850000, .i1⟩
  | 73 => ⟨S850000x64, .f32⟩
  | 74 => ⟨S850000x64, .i1⟩
  | 75 => ⟨S_, .f32⟩
  | 76 => ⟨S850000x64, .f32⟩
  | 77 => ⟨S850000x64, .f32⟩
  | 78 => ⟨S850000x1, .f32⟩
  | 79 => ⟨S850000x64, .f32⟩
  | 80 => ⟨S850000x64, .f32⟩
  | 81 => ⟨S_, .f32⟩
  | 82 => ⟨S50000x64, .f32⟩
  | 83 => ⟨S850000x1, .i32⟩
  | 84 => ⟨S50000x64, .f32⟩
  | 85 => ⟨S1x64, .f32⟩
  | 86 => ⟨S1x64, .f32⟩
  | 87 => ⟨S1x64, .f32⟩
  | 88 => ⟨S50000x64, .f32⟩
  | 89 => ⟨S50000x64, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S1, .i32⟩
  | 99 => ⟨S_, .i32⟩
  | 100 => ⟨S850000x1, .i32⟩
  | 101 => ⟨S850000x1, .i1⟩
  | 102 => ⟨S1x1, .i32⟩
  | 103 => ⟨S850000x1, .i32⟩
  | 104 => ⟨S850000x1, .i1⟩
  | 105 => ⟨S850000x1, .i1⟩
  | 106 => ⟨S_, .i1⟩
  | 107 => ⟨S850000, .i1⟩
  | 108 => ⟨S850000x64, .f32⟩
  | 109 => ⟨S850000x64, .i1⟩
  | 110 => ⟨S_, .f32⟩
  | 111 => ⟨S850000x64, .f32⟩
  | 112 => ⟨S850000x64, .f32⟩
  | 113 => ⟨S850000x1, .f32⟩
  | 114 => ⟨S850000x64, .f32⟩
  | 115 => ⟨S850000x64, .f32⟩
  | 116 => ⟨S_, .f32⟩
  | 117 => ⟨S50000x64, .f32⟩
  | 118 => ⟨S850000x1, .i32⟩
  | 119 => ⟨S50000x64, .f32⟩
  | 120 => ⟨S1x64, .f32⟩
  | 121 => ⟨S1x64, .f32⟩
  | 122 => ⟨S1x64, .f32⟩
  | 123 => ⟨S50000x64, .f32⟩
  | 124 => ⟨S50000x64, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S1, .i32⟩
  | 6 => ⟨S_, .i32⟩
  | 7 => ⟨S850000x1, .i32⟩
  | 8 => ⟨S850000x1, .i1⟩
  | 9 => ⟨S1x1, .i32⟩
  | 10 => ⟨S850000x1, .i32⟩
  | 11 => ⟨S850000x1, .i1⟩
  | 12 => ⟨S850000x1, .i1⟩
  | 13 => ⟨S_, .i1⟩
  | 14 => ⟨S850000, .i1⟩
  | 15 => ⟨S850000x64, .f32⟩
  | 16 => ⟨S850000x64, .i1⟩
  | 17 => ⟨S_, .f32⟩
  | 18 => ⟨S850000x64, .f32⟩
  | 19 => ⟨S850000x64, .f32⟩
  | 20 => ⟨S850000x1, .f32⟩
  | 21 => ⟨S850000x64, .f32⟩
  | 22 => ⟨S850000x64, .f32⟩
  | 23 => ⟨S_, .f32⟩
  | 24 => ⟨S50000x64, .f32⟩
  | 25 => ⟨S850000x1, .i32⟩
  | 26 => ⟨S50000x64, .f32⟩
  | 27 => ⟨S1x64, .f32⟩
  | 28 => ⟨S1x64, .f32⟩
  | 29 => ⟨S1x64, .f32⟩
  | 30 => ⟨S50000x64, .f32⟩
  | 31 => ⟨S1x64, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x128, .f32⟩
  | 39 => ⟨S1x128, .f32⟩
  | 40 => ⟨S1x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_call0_cst : Ref sig .tc := ⟨.hbm, 75, rfl⟩
abbrev main_call0_v15 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_5 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_call1_c : Ref sig .tc := ⟨.hbm, 90, rfl⟩
abbrev main_call1_v0 : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_c_2 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_3 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_call1_cst : Ref sig .tc := ⟨.hbm, 110, rfl⟩
abbrev main_call1_v15 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_cst_6 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_call2_c : Ref sig .tc := ⟨.hbm, 125, rfl⟩
abbrev main_call2_v0 : Ref sig .tc := ⟨.hbm, 126, rfl⟩
abbrev main_call2_v1 : Ref sig .tc := ⟨.hbm, 127, rfl⟩
abbrev main_call2_c_0 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_c_1 : Ref sig .tc := ⟨.hbm, 133, rfl⟩
abbrev main_call2_c_2 : Ref sig .tc := ⟨.hbm, 134, rfl⟩
abbrev main_call2_v6 : Ref sig .tc := ⟨.hbm, 135, rfl⟩
abbrev main_call2_v7 : Ref sig .tc := ⟨.hbm, 136, rfl⟩
abbrev main_call2_v8 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_c_3 : Ref sig .tc := ⟨.hbm, 141, rfl⟩
abbrev main_call2_v12 : Ref sig .tc := ⟨.hbm, 142, rfl⟩
abbrev main_call2_v13 : Ref sig .tc := ⟨.hbm, 143, rfl⟩
abbrev main_call2_v14 : Ref sig .tc := ⟨.hbm, 144, rfl⟩
abbrev main_call2_cst : Ref sig .tc := ⟨.hbm, 145, rfl⟩
abbrev main_call2_v15 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_cst_7 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_call3_cst : Ref sig .tc := ⟨.hbm, 163, rfl⟩
abbrev main_call3_v0 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem4_1 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x64_0 : S850000.BroadcastsInDim S850000x64 (![0] : Fin 1 → Fin S850000x64.rank)
  bcast_S_S850000x64 : S_.BroadcastsInDim S850000x64 (![] : Fin 0 → Fin S850000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  reduces_S5000x64_S64 : S5000x64.Reduces [0] S64
  bcast_S64_S1x64_1 : S64.BroadcastsInDim S1x64 (![1] : Fin 1 → Fin S1x64.rank)
  bcast_S_S1x64 : S_.BroadcastsInDim S1x64 (![] : Fin 0 → Fin S1x64.rank)
  bcast_S128_S1x128_1 : S128.BroadcastsInDim S1x128 (![1] : Fin 1 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S1x64_S64x64_S1x64_1_0_0_1_n_n_wf : DotDims.WF S1x64 S64x64 S1x64 [1] [0] [0] [1] [] []
  dot_S1x64_S64x128_S1x128_1_0_0_1_n_n_wf : DotDims.WF S1x64 S64x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v52) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v52) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S5000x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v64) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v64) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S1x64.size cc6_transform_1 reads6_1 true true 1 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev idle6 : Fin 2 → grid6.Coords → Bool := fun | 0 => fun _ => false | 1 => fun i => !(k6_cond2 i == 1#1) | ⟨_ + 2, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x128 : Shape := ⟨2, ![1, 128]⟩

abbrev nBuf : Space → Nat
  | .hbm => 227
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x128, .f32⟩
  | 17 => ⟨S128, .f32⟩
  | 18 => ⟨S50000, .i32⟩
  | 19 => ⟨S1x800000, .i32⟩
  | 20 => ⟨S800000, .i32⟩
  | 21 => ⟨S850000, .i32⟩
  | 22 => ⟨S1x800000, .i32⟩
  | 23 => ⟨S800000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x64, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x64, .f32⟩
  | 64 => ⟨S850000x1, .f32⟩
  | 65 => ⟨S850000x64, .f32⟩
  | 66 => ⟨S850000x64, .f32⟩
  | 67 => ⟨S_, .f32⟩
  | 68 => ⟨S50000x64, .f32⟩
  | 69 => ⟨S850000x1, .i32⟩
  | 70 => ⟨S50000x64, .f32⟩
  | 71 => ⟨S1x64, .f32⟩
  | 72 => ⟨S50000x64, .f32⟩
  | 73 => ⟨S50000x64, .f32⟩
  | 74 => ⟨S_, .f32⟩
  | 75 => ⟨S50000, .f32⟩
  | 76 => ⟨S50000x1, .f32⟩
  | 77 => ⟨S_, .f32⟩
  | 78 => ⟨S50000x1, .f32⟩
  | 79 => ⟨S50000x1, .f32⟩
  | 80 => ⟨S50000x64, .f32⟩
  | 81 => ⟨S50000x64, .f32⟩
  | 82 => ⟨S50000x64, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x64, .f32⟩
  | 90 => ⟨S50000x64, .f32⟩
  | 91 => ⟨S_, .f32⟩
  | 92 => ⟨S50000x1, .f32⟩
  | 93 => ⟨S50000x1, .f32⟩
  | 94 => ⟨S50000x1, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S50000x64, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .f32⟩
  | 116 => ⟨S850000x1, .f32⟩
  | 117 => ⟨S850000x64, .f32⟩
  | 118 => ⟨S850000x64, .f32⟩
  | 119 => ⟨S_, .f32⟩
  | 120 => ⟨S50000x64, .f32⟩
  | 121 => ⟨S850000x1, .i32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S50000, .f32⟩
  | _ => ⟨S50000x128, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x64, .f32⟩
  | 5 => ⟨S50000x64, .f32⟩
  | 6 => ⟨S50000x64, .f32⟩
  | 7 => ⟨S_, .f32⟩
  | 8 => ⟨S50000, .f32⟩
  | 9 => ⟨S50000x1, .f32⟩
  | 10 => ⟨S_, .f32⟩
  | 11 => ⟨S50000x1, .f32⟩
  | 12 => ⟨S50000x1, .f32⟩
  | 13 => ⟨S50000x64, .f32⟩
  | 14 => ⟨S50000x64, .f32⟩
  | 15 => ⟨S_, .f32⟩
  | 16 => ⟨S50000x1, .f32⟩
  | 17 => ⟨S50000x1, .f32⟩
  | 18 => ⟨S50000x1, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S50000x64, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000x64, .f32⟩
  | 41 => ⟨S850000x1, .f32⟩
  | 42 => ⟨S850000x64, .f32⟩
  | 43 => ⟨S850000x64, .f32⟩
  | 44 => ⟨S_, .f32⟩
  | 45 => ⟨S50000x64, .f32⟩
  | 46 => ⟨S850000x1, .i32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x64, .f32⟩
  | 58 => ⟨S50000x64, .f32⟩
  | 59 => ⟨S50000x64, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S50000x64, .f32⟩
  | 67 => ⟨S50000x64, .f32⟩
  | 68 => ⟨S_, .f32⟩
  | 69 => ⟨S50000x1, .f32⟩
  | 70 => ⟨S50000x1, .f32⟩
  | 71 => ⟨S50000x1, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S1x128, .f32⟩
  | 97 => ⟨S1x128, .f32⟩
  | 98 => ⟨S1x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call0_cst : Ref sig .tc := ⟨.hbm, 103, rfl⟩
abbrev main_call0_v0 : Ref sig .tc := ⟨.hbm, 104, rfl⟩
abbrev main_v70 : Ref sig .tc := ⟨.hbm, 105, rfl⟩
abbrev main_v71 : Ref sig .tc := ⟨.hbm, 106, rfl⟩
abbrev main_c_13 : Ref sig .tc := ⟨.hbm, 107, rfl⟩
abbrev main_v72 : Ref sig .tc := ⟨.hbm, 108, rfl⟩
abbrev main_v73 : Ref sig .tc := ⟨.hbm, 109, rfl⟩
abbrev main_c_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_cst_19 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_call1_cst : Ref sig .tc := ⟨.hbm, 155, rfl⟩
abbrev main_call1_v0 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_21 : Ref sig .tc := ⟨.hbm, 160, rfl⟩
abbrev main_v115 : Ref sig .tc := ⟨.hbm, 161, rfl⟩
abbrev main_v116 : Ref sig .tc := ⟨.hbm, 162, rfl⟩
abbrev main_c_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_23 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_24 : Ref sig .tc := ⟨.hbm, 179, rfl⟩
abbrev main_v131 : Ref sig .tc := ⟨.hbm, 180, rfl⟩
abbrev main_v132 : Ref sig .tc := ⟨.hbm, 181, rfl⟩
abbrev main_cst_25 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_26 : Ref sig .tc := ⟨.hbm, 188, rfl⟩
abbrev main_v138 : Ref sig .tc := ⟨.hbm, 189, rfl⟩
abbrev main_v139 : Ref sig .tc := ⟨.hbm, 190, rfl⟩
abbrev main_cst_27 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_28 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_call2_cst : Ref sig .tc := ⟨.hbm, 208, rfl⟩
abbrev main_call2_v0 : Ref sig .tc := ⟨.hbm, 209, rfl⟩
abbrev main_v155 : Ref sig .tc := ⟨.hbm, 210, rfl⟩
abbrev main_v156 : Ref sig .tc := ⟨.hbm, 211, rfl⟩
abbrev main_cst_29 : Ref sig .tc := ⟨.hbm, 212, rfl⟩
abbrev main_v157 : Ref sig .tc := ⟨.hbm, 213, rfl⟩
abbrev main_v158 : Ref sig .tc := ⟨.hbm, 214, rfl⟩
abbrev main_cst_30 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_call3_cst : Ref sig .tc := ⟨.hbm, 221, rfl⟩
abbrev main_call3_v0 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  reducesTo_S50000x64_S64_d0 : S50000x64.ReducesTo [0] S64
  bcast_S_S1x64 : S_.BroadcastsInDim S1x64 (![] : Fin 0 → Fin S1x64.rank)
  bcast_S128_S1x128_1 : S128.BroadcastsInDim S1x128 (![1] : Fin 1 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S1x64_S64x64_S1x64_1_0_0_1_n_n_wf : DotDims.WF S1x64 S64x64 S1x64 [1] [0] [0] [1] [] []
  dot_S1x64_S64x128_S1x128_1_0_0_1_n_n_wf : DotDims.WF S1x64 S64x128 S1x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf

class Facts : Prop extends Facts₀ where

variable [Facts]
-- ==== Proof.K.Reg0.lean ====
import proofs.«402883_j70007966925398_1_alg».proof.Proof.Gen.Kernel.Launch
import proofs.«402883_j70007966925398_1_alg».proof.Proof.Gen.Kernel.Skeleton
import proofs.«402883_j70007966925398_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev wholeX0 : Rect S5000x128 := Rect.unit (s := S5000x128) ![0, 0] S5000x128.size inb_S5000x128_S5000x128_0_0
abbrev wholeW0 : Rect S128x64 := Rect.unit (s := S128x64) ![0, 0] S128x64.size inb_S128x64_S128x64_0_0
abbrev whole0 : Rect S5000x64 := Rect.unit (s := S5000x64) ![0, 0] S5000x64.size inb_S5000x64_S5000x64_0_0

def out0 (x0 : Vec F S5000x128 .f32) (x1 : Vec F S128x64 .f32) : Vec F S5000x64 .f32 :=
  View.canon [⟨whole0, k0_pay1 (View.ld x0 wholeX0) (View.ld x1 wholeW0)⟩]

theorem run_body0 (c : Dev nD) (t : Fin cfg0.N) (x0 : Vec F S5000x128 .f32) (x1 : Vec F S128x64 .f32) (d : Vec F S5000x64 .f32)
    (K : PUnit → sProp (MT nD τ sig Unit (Elt F) ℕ (UR sig nD τ) ℕ)) :
    iprop(owns c.tc (st0_0 t) fullShare x0 ∗ owns c.tc (st0_1 t) fullShare x1 ∗ owns c.tc (st0_2 t) fullShare d
        ∗ (iprop(owns c.tc (st0_0 t) fullShare x0 ∗ owns c.tc (st0_1 t) fullShare x1 ∗ owns c.tc (st0_2 t) fullShare (out0 x0 x1)) -∗ K ⟨⟩))
      ⊢ wp frame (wpE (defs₀ (F := F)) Variants.none c none) Set.univ (bodyAt0 t) K := by
  unfold bodyAt0; simp only [cc0__matmul_kernel_eq_skeleton]; unfold cc0__matmul_kernel_skel
  unfold owns
  iintro ⟨⟨%f0, %hf0, H0⟩, ⟨%f1, %hf1, H1⟩, ⟨%f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := rfl

theorem dat0_after2 (c : Dev nD) (t : Fin cfg0.N) : (dat0 V c).after 2 t = out0 (blk0 V c 0 t) (blk0 V c 1 t) := by dsimp only [dat0]

theorem dat0_in (c : Dev nD) (t : Fin cfg0.N) :
    (∀ d, (dat0 V c).before 0 t d = blk0 V c 0 t) ∧ (dat0 V c).after 0 t = blk0 V c 0 t ∧
    (∀ d, (dat0 V c).before 1 t d = blk0 V c 1 t) ∧ (dat0 V c).after 1 t = blk0 V c 1 t := by
  and_intros <;> first
    | exact fun d => ((dat0 V c).before_in_eq_fetched _ rfl (fun _ => rfl) (fun _ _ _ => rfl) (fun _ => rfl) t d).trans rfl
    | dsimp only [dat0]

theorem obligation0 (c : Dev nD) : BodyObligation (dat0 (F := F) V c) (defs₀ (F := F)) Variants.none () Set.univ := fun t => by
  rw [bigSep_W0, bigSep_W0]
  simp only [dat0_in, dat0_after2]
  show _ ⊢ wp _ _ _ (bodyAt0 t) fun _ => iprop((dat0 V c).Φ t.castSucc ∗ (dat0 V c).owesAt () t.castSucc ∗ _)
  iintro ⟨HΦ, Ho, ⟨%d0, H0⟩, ⟨%d1, H1⟩, ⟨%d2, H2⟩⟩
  iapply (run_body0 c t (blk0 V c 0 t) (blk0 V c 1 t) ((dat0 V c).before 2 t d2) _)
  iframe H0 H1 H2
  iintro ⟨H0, H1, H2⟩
  iframe

end Cert.Kernel.Hand

end
-- ==== Proof.K.Reg1.lean ====
import proofs.«402883_j70007966925398_1_alg».proof.Proof.Gen.Kernel.Launch
import proofs.«402883_j70007966925398_1_alg».proof.Proof.Gen.Kernel.Skeleton
import proofs.«402883_j70007966925398_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev tile1 : Rect S5000x64 := Rect.unit (s := S5000x64) ![0, 0] S5000x64.size inb_S5000x64_S5000x64_0_0
abbrev row1 : Rect S1x64 := Rect.unit (s := S1x64) ![0, 0] S1x64.size inb_S1x64_S1x64_0_0

def out1 (x0 : Vec F S5000x64 .f32) (x1 x2 x3 : Vec F S1x64 .f32) : Vec F S5000x64 .f32 :=
  View.canon [⟨tile1, k1_pay1 (View.ld x0 tile1) (View.ld x1 row1) (View.ld x2 row1) (View.ld x3 row1)⟩]

theorem run_body1 (c : Dev nD) (t : Fin cfg1.N) (x0 : Vec F S5000x64 .f32) (x1 x2 x3 : Vec F S1x64 .f32) (d : Vec F S5000x64 .f32)
    (K : PUnit → sProp (MT nD τ sig Unit (Elt F) ℕ (UR sig nD τ) ℕ)) :
    iprop(owns c.tc (st1_0 t) fullShare x0 ∗ owns c.tc (st1_1 t) fullShare x1 ∗ owns c.tc (st1_2 t) fullShare x2 ∗ owns c.tc (st1_3 t) fullShare x3 ∗ owns c.tc (st1_4 t) fullShare d
        ∗ (iprop(owns c.tc (st1_0 t) fullShare x0 ∗ owns c.tc (st1_1 t) fullShare x1 ∗ owns c.tc (st1_2 t) fullShare x2 ∗ owns c.tc (st1_3 t) fullShare x3 ∗ owns c.tc (st1_4 t) fullShare (out1 x0 x1 x2 x3)) -∗ K ⟨⟩))
      ⊢ wp frame (wpE (defs₀ (F := F)) Variants.none c none) Set.univ (bodyAt1 t) K := by
  unfold bodyAt1; simp only [cc1__ln_kernel_eq_skeleton]; unfold cc1__ln_kernel_skel
  unfold owns
  iintro ⟨⟨%f0, %hf0, H0⟩, ⟨%f1, %hf1, H1⟩, ⟨%f2, %hf2, H2⟩, ⟨%f3, %hf3, H3⟩, ⟨%f4, -, H4⟩, Hk⟩
  subst hf0; subst hf1; subst hf2; subst hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => out1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := rfl

theorem dat1_after4 (c : Dev nD) (t : Fin cfg1.N) : (dat1 V c).after 4 t = out1 (blk1 V c 0 t) (blk1 V c 1 t) (blk1 V c 2 t) (blk1 V c 3 t) := by dsimp only [dat1]

theorem dat1_in (c : Dev nD) (t : Fin cfg1.N) :
    (∀ d, (dat1 V c).before 0 t d = blk1 V c 0 t) ∧ (dat1 V c).after 0 t = blk1 V c 0 t ∧
    (∀ d, (dat1 V c).before 1 t d = blk1 V c 1 t) ∧ (dat1 V c).after 1 t = blk1 V c 1 t ∧
    (∀ d, (dat1 V c).before 2 t d = blk1 V c 2 t) ∧ (dat1 V c).after 2 t = blk1 V c 2 t ∧
    (∀ d, (dat1 V c).before 3 t d = blk1 V c 3 t) ∧ (dat1 V c).after 3 t = blk1 V c 3 t := by
  and_intros <;> first
    | exact fun d => ((dat1 V c).before_in_eq_fetched _ rfl (fun _ => rfl) (fun _ _ _ => rfl) (fun _ => rfl) t d).trans rfl
    | dsimp only [dat1]

theorem obligation1 (c : Dev nD) : BodyObligation (dat1 (F := F) V c) (defs₀ (F := F)) Variants.none () Set.univ := fun t => by
  rw [bigSep_W1, bigSep_W1]
  simp only [dat1_in, dat1_after4]
  show _ ⊢ wp _ _ _ (bodyAt1 t) fun _ => iprop((dat1 V c).Φ t.castSucc ∗ (dat1 V c).owesAt () t.castSucc ∗ _)
  iintro ⟨HΦ, Ho, ⟨%d0, H0⟩, ⟨%d1, H1⟩, ⟨%d2, H2⟩, ⟨%d3, H3⟩, ⟨%d4, H4⟩⟩
  iapply (run_body1 c t (blk1 V c 0 t) (blk1 V c 1 t) (blk1 V c 2 t) (blk1 V c 3 t) ((dat1 V c).before 4 t d4) _)
  iframe H0 H1 H2 H3 H4
  iintro ⟨H0, H1, H2, H3, H4⟩
  iframe

end Cert.Kernel.Hand

end
-- ==== Proof.K.Reg2.lean ====
import proofs.«402883_j70007966925398_1_alg».proof.Proof.Gen.Kernel.Launch
import proofs.«402883_j70007966925398_1_alg».proof.Proof.Gen.Kernel.Skeleton
import proofs.«402883_j70007966925398_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev whole2 : Rect S5000x64 := Rect.unit (s := S5000x64) ![0, 0] S5000x64.size inb_S5000x64_S5000x64_0_0
abbrev wholeW2 : Rect S64x64 := Rect.unit (s := S64x64) ![0, 0] S64x64.size inb_S64x64_S64x64_0_0

def out2 (x0 : Vec F S5000x64 .f32) (x1 : Vec F S64x64 .f32) : Vec F S5000x64 .f32 :=
  View.canon [⟨whole2, k2_pay1 (View.ld x0 whole2) (View.ld x1 wholeW2)⟩]

theorem run_body2 (c : Dev nD) (t : Fin cfg2.N) (x0 : Vec F S5000x64 .f32) (x1 : Vec F S64x64 .f32) (d : Vec F S5000x64 .f32)
    (K : PUnit → sProp (MT nD τ sig Unit (Elt F) ℕ (UR sig nD τ) ℕ)) :
    iprop(owns c.tc (st2_0 t) fullShare x0 ∗ owns c.tc (st2_1 t) fullShare x1 ∗ owns c.tc (st2_2 t) fullShare d
        ∗ (iprop(owns c.tc (st2_0 t) fullShare x0 ∗ owns c.tc (st2_1 t) fullShare x1 ∗ owns c.tc (st2_2 t) fullShare (out2 x0 x1)) -∗ K ⟨⟩))
      ⊢ wp frame (wpE (defs₀ (F := F)) Variants.none c none) Set.univ (bodyAt2 t) K := by
  unfold bodyAt2; simp only [cc2__matmul_kernel_eq_skeleton]; unfold cc2__matmul_kernel_skel
  unfold owns
  iintro ⟨⟨%f0, %hf0, H0⟩, ⟨%f1, %hf1, H1⟩, ⟨%f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := rfl

theorem dat2_after2 (c : Dev nD) (t : Fin cfg2.N) : (dat2 V c).after 2 t = out2 (blk2 V c 0 t) (blk2 V c 1 t) := by dsimp only [dat2]

theorem dat2_in (c : Dev nD) (t : Fin cfg2.N) :
    (∀ d, (dat2 V c).before 0 t d = blk2 V c 0 t) ∧ (dat2 V c).after 0 t = blk2 V c 0 t ∧
    (∀ d, (dat2 V c).before 1 t d = blk2 V c 1 t) ∧ (dat2 V c).after 1 t = blk2 V c 1 t := by
  and_intros <;> first
    | exact fun d => ((dat2 V c).before_in_eq_fetched _ rfl (fun _ => rfl) (fun _ _ _ => rfl) (fun _ => rfl) t d).trans rfl
    | dsimp only [dat2]

theorem obligation2 (c : Dev nD) : BodyObligation (dat2 (F := F) V c) (defs₀ (F := F)) Variants.none () Set.univ := fun t => by
  rw [bigSep_W2, bigSep_W2]
  simp only [dat2_in, dat2_after2]
  show _ ⊢ wp _ _ _ (bodyAt2 t) fun _ => iprop((dat2 V c).Φ t.castSucc ∗ (dat2 V c).owesAt () t.castSucc ∗ _)
  iintro ⟨HΦ, Ho, ⟨%d0, H0⟩, ⟨%d1, H1⟩, ⟨%d2, H2⟩⟩
  iapply (run_body2 c t (blk2 V c 0 t) (blk2 V c 1 t) ((dat2 V c).before 2 t d2) _)
  iframe H0 H1 H2
  iintro ⟨H0, H1, H2⟩
  iframe

end Cert.Kernel.Hand

end
-- ==== Proof.K.Reg3.lean ====
import proofs.«402883_j70007966925398_1_alg».proof.Proof.Gen.Kernel.Launch
import proofs.«402883_j70007966925398_1_alg».proof.Proof.Gen.Kernel.Skeleton
import proofs.«402883_j70007966925398_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev tile3 : Rect S5000x64 := Rect.unit (s := S5000x64) ![0, 0] S5000x64.size inb_S5000x64_S5000x64_0_0
abbrev row3 : Rect S1x64 := Rect.unit (s := S1x64) ![0, 0] S1x64.size inb_S1x64_S1x64_0_0

def out3 (x0 : Vec F S5000x64 .f32) (x1 x2 x3 : Vec F S1x64 .f32) (x4 : Vec F S5000x64 .f32) : Vec F S5000x64 .f32 :=
  View.canon [⟨tile3, k3_pay1 (View.ld x0 tile3) (View.ld x1 row3) (View.ld x2 row3) (View.ld x3 row3) (View.ld x4 tile3)⟩]

theorem run_body3 (c : Dev nD) (t : Fin cfg3.N) (x0 : Vec F S5000x64 .f32) (x1 x2 x3 : Vec F S1x64 .f32) (x4 : Vec F S5000x64 .f32) (d : Vec F S5000x64 .f32)
    (K : PUnit → sProp (MT nD τ sig Unit (Elt F) ℕ (UR sig nD τ) ℕ)) :
    iprop(owns c.tc (st3_0 t) fullShare x0 ∗ owns c.tc (st3_1 t) fullShare x1 ∗ owns c.tc (st3_2 t) fullShare x2 ∗ owns c.tc (st3_3 t) fullShare x3 ∗ owns c.tc (st3_4 t) fullShare x4 ∗ owns c.tc (st3_5 t) fullShare d
        ∗ (iprop(owns c.tc (st3_0 t) fullShare x0 ∗ owns c.tc (st3_1 t) fullShare x1 ∗ owns c.tc (st3_2 t) fullShare x2 ∗ owns c.tc (st3_3 t) fullShare x3 ∗ owns c.tc (st3_4 t) fullShare x4 ∗ owns c.tc (st3_5 t) fullShare (out3 x0 x1 x2 x3 x4)) -∗ K ⟨⟩))
      ⊢ wp frame (wpE (defs₀ (F := F)) Variants.none c none) Set.univ (bodyAt3 t) K := by
  unfold bodyAt3; simp only [cc3__ln_resid_kernel_eq_skeleton]; unfold cc3__ln_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => out3 (blk3 V c 0 t) (blk3 V c 1 t) (blk3 V c 2 t) (blk3 V c 3 t) (blk3 V c 4 t)
  Φ _ := Pipeline.ΦA spec3 c
  q _ := fullShare
  owed _ := 0

theorem dat3_A (c : Dev nD) (w : Fin cfg3.W) : (dat3 V c).A w = V c (Pipeline.arrRef spec3 w) := rfl

theorem dat3_after5 (c : Dev nD) (t : Fin cfg3.N) : (dat3 V c).after 5 t = out3 (blk3 V c 0 t) (blk3 V c 1 t) (blk3 V c 2 t) (blk3 V c 3 t) (blk3 V c 4 t) := by dsimp only [dat3]

theorem dat3_in (c : Dev nD) (t : Fin cfg3.N) :
    (∀ d, (dat3 V c).before 0 t d = blk3 V c 0 t) ∧ (dat3 V c).after 0 t = blk3 V c 0 t ∧
    (∀ d, (dat3 V c).before 1 t d = blk3 V c 1 t) ∧ (dat3 V c).after 1 t = blk3 V c 1 t ∧
    (∀ d, (dat3 V c).before 2 t d = blk3 V c 2 t) ∧ (dat3 V c).after 2 t = blk3 V c 2 t ∧
    (∀ d, (dat3 V c).before 3 t d = blk3 V c 3 t) ∧ (dat3 V c).after 3 t = blk3 V c 3 t ∧
    (∀ d, (dat3 V c).before 4 t d = blk3 V c 4 t) ∧ (dat3 V c).after 4 t = blk3 V c 4 t := by
  and_intros <;> first
    | exact fun d => ((dat3 V c).before_in_eq_fetched _ rfl (fun _ => rfl) (fun _ _ _ => rfl) (fun _ => rfl) t d).trans rfl
    | dsimp only [dat3]

theorem obligation3 (c : Dev nD) : BodyObligation (dat3 (F := F) V c) (defs₀ (F := F)) Variants.none () Set.univ := fun t => by
  rw [bigSep_W3, bigSep_W3]
  simp only [dat3_in, dat3_after5]
  show _ ⊢ wp _ _ _ (bodyAt3 t) fun _ => iprop((dat3 V c).Φ t.castSucc ∗ (dat3 V c).owesAt () t.castSucc ∗ _)
  iintro ⟨HΦ, Ho, ⟨%d0, H0⟩, ⟨%d1, H1⟩, ⟨%d2, H2⟩, ⟨%d3, H3⟩, ⟨%d4, H4⟩, ⟨%d5, H5⟩⟩
  iapply (run_body3 c t (blk3 V c 0 t) (blk3 V c 1 t) (blk3 V c 2 t) (blk3 V c 3 t) (blk3 V c 4 t) ((dat3 V c).before 5 t d5) _)
  iframe H0 H1 H2 H3 H4 H5
  iintro ⟨H0, H1, H2, H3, H4, H5⟩
  iframe

end Cert.Kernel.Hand

end
-- ==== Proof.K.Reg4.lean ====
import proofs.«402883_j70007966925398_1_alg».proof.Proof.Gen.Kernel.Launch
import proofs.«402883_j70007966925398_1_alg».proof.Proof.Gen.Kernel.Skeleton
import proofs.«402883_j70007966925398_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev whole4 : Rect S5000x64 := Rect.unit (s := S5000x64) ![0, 0] S5000x64.size inb_S5000x64_S5000x64_0_0
abbrev wholeW4 : Rect S64x64 := Rect.unit (s := S64x64) ![0, 0] S64x64.size inb_S64x64_S64x64_0_0

def out4 (x0 : Vec F S5000x64 .f32) (x1 : Vec F S64x64 .f32) : Vec F S5000x64 .f32 :=
  View.canon [⟨whole4, k4_pay1 (View.ld x0 whole4) (View.ld x1 wholeW4)⟩]

theorem run_body4 (c : Dev nD) (t : Fin cfg4.N) (x0 : Vec F S5000x64 .f32) (x1 : Vec F S64x64 .f32) (d : Vec F S5000x64 .f32)
    (K : PUnit → sProp (MT nD τ sig Unit (Elt F) ℕ (UR sig nD τ) ℕ)) :
    iprop(owns c.tc (st4_0 t) fullShare x0 ∗ owns c.tc (st4_1 t) fullShare x1 ∗ owns c.tc (st4_2 t) fullShare d
        ∗ (iprop(owns c.tc (st4_0 t) fullShare x0 ∗ owns c.tc (st4_1 t) fullShare x1 ∗ owns c.tc (st4_2 t) fullShare (out4 x0 x1)) -∗ K ⟨⟩))
      ⊢ wp frame (wpE (defs₀ (F := F)) Variants.none c none) Set.univ (bodyAt4 t) K := by
  unfold bodyAt4; simp only [cc4__matmul_kernel_eq_skeleton]; unfold cc4__matmul_kernel_skel
  unfold owns
  iintro ⟨⟨%f0, %hf0, H0⟩, ⟨%f1, %hf1, H1⟩, ⟨%f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2
  ipureintro
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => out4 (blk4 V c 0 t) (blk4 V c 1 t)
  Φ _ := Pipeline.ΦA spec4 c
  q _ := fullShare
  owed _ := 0

theorem dat4_A (c : Dev nD) (w : Fin cfg4.W) : (dat4 V c).A w = V c (Pipeline.arrRef spec4 w) := rfl

theorem dat4_after2 (c : Dev nD) (t : Fin cfg4.N) : (dat4 V c).after 2 t = out4 (blk4 V c 0 t) (blk4 V c 1 t) := by dsimp only [dat4]

theorem dat4_in (c : Dev nD) (t : Fin cfg4.N) :
    (∀ d, (dat4 V c).before 0 t d = blk4 V c 0 t) ∧ (dat4 V c).after 0 t = blk4 V c 0 t ∧
    (∀ d, (dat4 V c).before 1 t d = blk4 V c 1 t) ∧ (dat4 V c).after 1 t = blk4 V c 1 t := by
  and_intros <;> first
    | exact fun d => ((dat4 V c).before_in_eq_fetched _ rfl (fun _ => rfl) (fun _ _ _ => rfl) (fun _ => rfl) t d).trans rfl
    | dsimp only [dat4]

theorem obligation4 (c : Dev nD) : BodyObligation (dat4 (F := F) V c) (defs₀ (F := F)) Variants.none () Set.univ := fun t => by
  rw [bigSep_W4, bigSep_W4]
  simp only [dat4_in, dat4_after2]
  show _ ⊢ wp _ _ _ (bodyAt4 t) fun _ => iprop((dat4 V c).Φ t.castSucc ∗ (dat4 V c).owesAt () t.castSucc ∗ _)
  iintro ⟨HΦ, Ho, ⟨%d0, H0⟩, ⟨%d1, H1⟩, ⟨%d2, H2⟩⟩
  iapply (run_body4 c t (blk4 V c 0 t) (blk4 V c 1 t) ((dat4 V c).before 2 t d2) _)
  iframe H0 H1 H2
  iintro ⟨H0, H1, H2⟩
  iframe

end Cert.Kernel.Hand

end
-- ==== Proof.K.Reg5.lean ====
import proofs.«402883_j70007966925398_1_alg».proof.Proof.Gen.Kernel.Launch
import proofs.«402883_j70007966925398_1_alg».proof.Proof.Gen.Kernel.Skeleton
import proofs.«402883_j70007966925398_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev tile5 : Rect S5000x64 := Rect.unit (s := S5000x64) ![0, 0] S5000x64.size inb_S5000x64_S5000x64_0_0
abbrev row5 : Rect S1x64 := Rect.unit (s := S1x64) ![0, 0] S1x64.size inb_S1x64_S1x64_0_0

def out5 (x0 : Vec F S5000x64 .f32) (x1 x2 x3 : Vec F S1x64 .f32) (x4 : Vec F S5000x64 .f32) : Vec F S5000x64 .f32 :=
  View.canon [⟨tile5, k5_pay1 (View.ld x0 tile5) (View.ld x1 row5) (View.ld x2 row5) (View.ld x3 row5) (View.ld x4 tile5)⟩]

theorem run_body5 (c : Dev nD) (t : Fin cfg5.N) (x0 : Vec F S5000x64 .f32) (x1 x2 x3 : Vec F S1x64 .f32) (x4 : Vec F S5000x64 .f32) (d : Vec F S5000x64 .f32)
    (K : PUnit → sProp (MT nD τ sig Unit (Elt F) ℕ (UR sig nD τ) ℕ)) :
    iprop(owns c.tc (st5_0 t) fullShare x0 ∗ owns c.tc (st5_1 t) fullShare x1 ∗ owns c.tc (st5_2 t) fullShare x2 ∗ owns c.tc (st5_3 t) fullShare x3 ∗ owns c.tc (st5_4 t) fullShare x4 ∗ owns c.tc (st5_5 t) fullShare d
        ∗ (iprop(owns c.tc (st5_0 t) fullShare x0 ∗ owns c.tc (st5_1 t) fullShare x1 ∗ owns c.tc (st5_2 t) fullShare x2 ∗ owns c.tc (st5_3 t) fullShare x3 ∗ owns c.tc (st5_4 t) fullShare x4 ∗ owns c.tc (st5_5 t) fullShare (out5 x0 x1 x2 x3 x4)) -∗ K ⟨⟩))
      ⊢ wp frame (wpE (defs₀ (F := F)) Variants.none c none) Set.univ (bodyAt5 t) K := by
  unfold bodyAt5; simp only [cc5__ln_resid_kernel_eq_skeleton]; unfold cc5__ln_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => out5 (blk5 V c 0 t) (blk5 V c 1 t) (blk5 V c 2 t) (blk5 V c 3 t) (blk5 V c 4 t)
  Φ _ := Pipeline.ΦA spec5 c
  q _ := fullShare
  owed _ := 0

theorem dat5_A (c : Dev nD) (w : Fin cfg5.W) : (dat5 V c).A w = V c (Pipeline.arrRef spec5 w) := rfl

theorem dat5_after5 (c : Dev nD) (t : Fin cfg5.N) : (dat5 V c).after 5 t = out5 (blk5 V c 0 t) (blk5 V c 1 t) (blk5 V c 2 t) (blk5 V c 3 t) (blk5 V c 4 t) := by dsimp only [dat5]

theorem dat5_in (c : Dev nD) (t : Fin cfg5.N) :
    (∀ d, (dat5 V c).before 0 t d = blk5 V c 0 t) ∧ (dat5 V c).after 0 t = blk5 V c 0 t ∧
    (∀ d, (dat5 V c).before 1 t d = blk5 V c 1 t) ∧ (dat5 V c).after 1 t = blk5 V c 1 t ∧
    (∀ d, (dat5 V c).before 2 t d = blk5 V c 2 t) ∧ (dat5 V c).after 2 t = blk5 V c 2 t ∧
    (∀ d, (dat5 V c).before 3 t d = blk5 V c 3 t) ∧ (dat5 V c).after 3 t = blk5 V c 3 t ∧
    (∀ d, (dat5 V c).before 4 t d = blk5 V c 4 t) ∧ (dat5 V c).after 4 t = blk5 V c 4 t := by
  and_intros <;> first
    | exact fun d => ((dat5 V c).before_in_eq_fetched _ rfl (fun _ => rfl) (fun _ _ _ => rfl) (fun _ => rfl) t d).trans rfl
    | dsimp only [dat5]

theorem obligation5 (c : Dev nD) : BodyObligation (dat5 (F := F) V c) (defs₀ (F := F)) Variants.none () Set.univ := fun t => by
  rw [bigSep_W5, bigSep_W5]
  simp only [dat5_in, dat5_after5]
  show _ ⊢ wp _ _ _ (bodyAt5 t) fun _ => iprop((dat5 V c).Φ t.castSucc ∗ (dat5 V c).owesAt () t.castSucc ∗ _)
  iintro ⟨HΦ, Ho, ⟨%d0, H0⟩, ⟨%d1, H1⟩, ⟨%d2, H2⟩, ⟨%d3, H3⟩, ⟨%d4, H4⟩, ⟨%d5, H5⟩⟩
  iapply (run_body5 c t (blk5 V c 0 t) (blk5 V c 1 t) (blk5 V c 2 t) (blk5 V c 3 t) (blk5 V c 4 t) ((dat5 V c).before 5 t d5) _)
  iframe H0 H1 H2 H3 H4 H5
  iintro ⟨H0, H1, H2, H3, H4, H5⟩
  iframe

end Cert.Kernel.Hand

end
-- ==== Proof.K.Reg6Data.lean ====
import proofs.«402883_j70007966925398_1_alg».proof.Proof.Gen.Kernel.Launch
import proofs.«402883_j70007966925398_1_alg».proof.Proof.Gen.Kernel.Skeleton
import proofs.«402883_j70007966925398_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := if h : n < cfg6.N then ⟨n, h⟩ else t6_9

theorem pt6_val (t : Fin cfg6.N) : pt6 t.val = t := dif_pos t.isLt

def acc6 (c : Dev nD) : ℕ → Vec F S1x64 .f32
  | 0 => k6_pay2 (k6_pay1 (F := F)) (blk6 V c 0 (pt6 0))
  | n + 1 => k6_pay2 (acc6 c n) (blk6 V c 0 (pt6 (n + 1)))

theorem acc6_first (c : Dev nD) (t : Fin cfg6.N) (h : t.val = 0) :
    acc6 V c t.val = k6_pay2 (k6_pay1 (F := F)) (blk6 V c 0 t) := by
  have ht : pt6 0 = t := (congrArg pt6 h).symm.trans (pt6_val t)
  rw [h]; show k6_pay2 (k6_pay1 (F := F)) (blk6 V c 0 (pt6 0)) = _; rw [ht]

theorem acc6_later (c : Dev nD) (t : Fin cfg6.N) (h : t.val ≠ 0) :
    acc6 V c t.val = k6_pay2 (acc6 V c (t.val - 1)) (blk6 V c 0 t) := by
  obtain ⟨n, hn⟩ := t
  cases n with
  | zero => exact absurd rfl h
  | succ n =>
    show k6_pay2 (acc6 V c n) (blk6 V c 0 (pt6 (n + 1))) = _
    rw [show pt6 (n + 1) = ⟨n + 1, hn⟩ from pt6_val ⟨n + 1, hn⟩]; rfl

abbrev sc6 : Memref sig .tc .vmem S1x64 .f32 := Memref.whole cc6_scratch0

abbrev rest6 (c : Dev nD) : sProp 𝕄 :=
  Pipeline.scopedRestBut (Ix := Unit) (Name := ℕ) (U := UR sig nD τ) (Lvl := ℕ) (Val := Elt F) spec6 c [cc6_scratch0]

def Phi6 (c : Dev nD) : ℕ → sProp 𝕄
  | 0 => iprop((∃ d, owns (c : Thread nD τ) sc6 fullShare d) ∗ rest6 (F := F) c ∗ ∃ r, prngReg c r)
  | n + 1 => iprop(owns (c : Thread nD τ) sc6 fullShare (acc6 V c n) ∗ rest6 (F := F) c ∗ ∃ r, prngReg c r)

theorem Phi6_zero (c : Dev nD) (n : ℕ) (h : n = 0) :
    Phi6 V c n = iprop((∃ d, owns (c : Thread nD τ) sc6 fullShare d) ∗ rest6 (F := F) c ∗ ∃ r, prngReg c r) := by
  subst h; rfl

theorem Phi6_succ (c : Dev nD) (n : ℕ) :
    Phi6 V c (n + 1) = iprop(owns (c : Thread nD τ) sc6 fullShare (acc6 V c n) ∗ rest6 (F := F) c ∗ ∃ r, prngReg c r) := rfl

theorem Phi6_pos (c : Dev nD) (n : ℕ) (h : n ≠ 0) :
    Phi6 V c n = iprop(owns (c : Thread nD τ) sc6 fullShare (acc6 V c (n - 1)) ∗ rest6 (F := F) c ∗ ∃ r, prngReg c r) := by
  cases n with
  | zero => exact absurd rfl h
  | succ n => rfl

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => k6_pay3 (acc6 V c t.val)
  Φ t := Phi6 V c t.val
  q _ := fullShare
  owed _ := 0

theorem dat6_A (c : Dev nD) (w : Fin cfg6.W) : (dat6 V c).A w = V c (Pipeline.arrRef spec6 w) := by
  dsimp only [dat6]

theorem dat6_after0 (c : Dev nD) (t : Fin cfg6.N) : (dat6 V c).after 0 t = blk6 V c 0 t := by dsimp only [dat6]
theorem dat6_after1 (c : Dev nD) (t : Fin cfg6.N) : (dat6 V c).after 1 t = k6_pay3 (acc6 V c t.val) := by dsimp only [dat6]

theorem dat6_after1_last (c : Dev nD) : (dat6 V c).after 1 t6_9 = k6_pay3 (acc6 V c 9) := by
  rw [dat6_after1]; rfl

theorem dat6_Phi (c : Dev nD) (t : Fin (cfg6.N + 1)) : (dat6 V c).Φ t = Phi6 V c t.val := by dsimp only [dat6]

theorem dat6_before0 (c : Dev nD) (t : Fin cfg6.N) (d) : (dat6 V c).before 0 t d = blk6 V c 0 t :=
  ((dat6 V c).before_in_eq_fetched 0 rfl (fun _ => rfl) (fun _ _ _ => rfl) (fun _ => rfl) t d).trans rfl

end Cert.Kernel.Hand

end
-- ==== Proof.K.Fold.lean ====
import proofs.«402883_j70007966925398_1_alg».proof.Proof.Gen.Kernel.Regions
import proofs.«402883_j70007966925398_1_alg».proof.Proof.K.Reg0
import proofs.«402883_j70007966925398_1_alg».proof.Proof.K.Reg1
import proofs.«402883_j70007966925398_1_alg».proof.Proof.K.Reg2
import proofs.«402883_j70007966925398_1_alg».proof.Proof.K.Reg3
import proofs.«402883_j70007966925398_1_alg».proof.Proof.K.Reg4
import proofs.«402883_j70007966925398_1_alg».proof.Proof.K.Reg5
import proofs.«402883_j70007966925398_1_alg».proof.Proof.K.Reg6Data

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf arrRef withArrays)

variable {F : FTy → Type} [FloatOps F]

local notation "𝕄" => MT nD τ sig Unit (Elt F) ℕ (UR sig nD τ) ℕ

section
variable {cfg : Cfg sig Λ₀} {c : Dev nD} (dat : Dat τ (Elt F) Unit ℕ (UR sig nD τ) ℕ cfg c) (W : Valuation τ sig (Elt F))

theorem withArrays_not_mem (A) (b : Ref sig .tc) (hb : b ∉ Finset.univ.image (arrRef cfg.spec)) :
    withArrays cfg.spec c W A (Proc.devRef .tc b) = W (Proc.devRef .tc b) :=
  Pipeline.withArrays_of_ne _ c W A b fun w e => hb (Finset.mem_image.mpr ⟨w, Finset.mem_univ _, e⟩)

theorem withArrays_keep (hinj : Function.Injective (arrRef cfg.spec)) (hA : ∀ w, dat.A w = W (Proc.devRef .tc (arrRef cfg.spec w)))
    (o : Fin cfg.W) (ho : ∀ w, w ≠ o → (cfg.win w).isOut = false) (b : Ref sig .tc) (hb : b ≠ arrRef cfg.spec o) :
    withArrays cfg.spec c W (fun w => dat.arrAt w cfg.N) (Proc.devRef .tc b) = W (Proc.devRef .tc b) := by
  by_cases h : ∃ w, arrRef cfg.spec w = b
  · obtain ⟨w, rfl⟩ := h
    rw [Pipeline.withArrays_arr _ hinj, dat.arrAt_in w (ho w fun e => hb (e ▸ rfl)), hA]
  · exact Pipeline.withArrays_of_ne _ c W _ b fun w e => h ⟨w, e⟩
end

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  withArrays spec0 c (W1 m ρ c) fun w => (dat0 (V1 m ρ) c).arrAt w cfg0.N
theorem W2_arr (c : Dev nD) (w : Fin cfg0.W) :
    W2 m ρ c (Proc.devRef .tc (arrRef spec0 w)) = (dat0 (V1 m ρ) c).arrAt w cfg0.N :=
  Pipeline.withArrays_arr spec0 launch0.win.arr_inj c _ _ w
abbrev V2 : (c : Dev nD) → (b : Ref sig .tc) → Buf (Elt F) ((c : Thread nD τ).loc b) := fun c b => W2 m ρ c b
theorem arrsAt0 (c : Dev nD) (w : Fin cfg0.W) : (dat0 (V1 m ρ) c).arrAt w cfg0.N = V2 m ρ c (arrRef spec0 w) :=
  (W2_arr m ρ c w).symm
theorem others0 (c : Dev nD) : ∀ b, b ∉ Finset.univ.image (arrRef spec0) → V2 m ρ c b = V1 m ρ c b :=
  withArrays_not_mem (cfg := cfg0) _ _
theorem keep2 (c : Dev nD) (b : Ref sig .tc) (h : b ≠ main_v29) : W2 m ρ c (Proc.devRef .tc b) = W1 m ρ c (Proc.devRef .tc b) :=
  withArrays_keep (dat0 (V1 m ρ) c) _ launch0.win.arr_inj (dat0_A _ c) 2 (by decide) b h
abbrev W3 : Dev nD → Valuation τ sig (Elt F) := fun c => StableHlo.after hostOps1 (W2 m ρ c)
theorem keep3 (c : Dev nD) (b : Ref sig .tc) (h : b ∉ hostOps1_W) : W3 m ρ c (Proc.devRef .tc b) = W2 m ρ c (Proc.devRef .tc b) :=
  StableHlo.after_of_writes_sub hostOps1 _ hostOps1_writes h
abbrev W4 : Dev nD → Valuation τ sig (Elt F) := fun c => StableHlo.after hostOps1_1 (W3 m ρ c)
theorem keep4 (c : Dev nD) (b : Ref sig .tc) (h : b ∉ hostOps1_1_W) : W4 m ρ c (Proc.devRef .tc b) = W3 m ρ c (Proc.devRef .tc b) :=
  StableHlo.after_of_writes_sub hostOps1_1 _ hostOps1_1_writes h
abbrev V4 : (c : Dev nD) → (b : Ref sig .tc) → Buf (Elt F) ((c : Thread nD τ).loc b) := fun c b => W4 m ρ c b
def W5 (c : Dev nD) : Valuation τ sig (Elt F) :=
  withArrays spec1 c (W4 m ρ c) fun w => (dat1 (V4 m ρ) c).arrAt w cfg1.N
theorem W5_arr (c : Dev nD) (w : Fin cfg1.W) :
    W5 m ρ c (Proc.devRef .tc (arrRef spec1 w)) = (dat1 (V4 m ρ) c).arrAt w cfg1.N :=
  Pipeline.withArrays_arr spec1 launch1.win.arr_inj c _ _ w
abbrev V5 : (c : Dev nD) → (b : Ref sig .tc) → Buf (Elt F) ((c : Thread nD τ).loc b) := fun c b => W5 m ρ c b
theorem arrsAt1 (c : Dev nD) (w : Fin cfg1.W) : (dat1 (V4 m ρ) c).arrAt w cfg1.N = V5 m ρ c (arrRef spec1 w) :=
  (W5_arr m ρ c w).symm
theorem others1 (c : Dev nD) : ∀ b, b ∉ Finset.univ.image (arrRef spec1) → V5 m ρ c b = V4 m ρ c b :=
  withArrays_not_mem (cfg := cfg1) _ _
theorem keep5 (c : Dev nD) (b : Ref sig .tc) (h : b ≠ main_v40) : W5 m ρ c (Proc.devRef .tc b) = W4 m ρ c (Proc.devRef .tc b) :=
  withArrays_keep (dat1 (V4 m ρ) c) _ launch1.win.arr_inj (dat1_A _ c) 4 (by decide) b h
def W6 (c : Dev nD) : Valuation τ sig (Elt F) :=
  withArrays spec2 c (W5 m ρ c) fun w => (dat2 (V5 m ρ) c).arrAt w cfg2.N
theorem W6_arr (c : Dev nD) (w : Fin cfg2.W) :
    W6 m ρ c (Proc.devRef .tc (arrRef spec2 w)) = (dat2 (V5 m ρ) c).arrAt w cfg2.N :=
  Pipeline.withArrays_arr spec2 launch2.win.arr_inj c _ _ w
abbrev V6 : (c : Dev nD) → (b : Ref sig .tc) → Buf (Elt F) ((c : Thread nD τ).loc b) := fun c b => W6 m ρ c b
theorem arrsAt2 (c : Dev nD) (w : Fin cfg2.W) : (dat2 (V5 m ρ) c).arrAt w cfg2.N = V6 m ρ c (arrRef spec2 w) :=
  (W6_arr m ρ c w).symm
theorem others2 (c : Dev nD) : ∀ b, b ∉ Finset.univ.image (arrRef spec2) → V6 m ρ c b = V5 m ρ c b :=
  withArrays_not_mem (cfg := cfg2) _ _
theorem keep6 (c : Dev nD) (b : Ref sig .tc) (h : b ≠ main_v41) : W6 m ρ c (Proc.devRef .tc b) = W5 m ρ c (Proc.devRef .tc b) :=
  withArrays_keep (dat2 (V5 m ρ) c) _ launch2.win.arr_inj (dat2_A _ c) 2 (by decide) b h
abbrev W7 : Dev nD → Valuation τ sig (Elt F) := fun c => StableHlo.after hostOps3 (W6 m ρ c)
theorem keep7 (c : Dev nD) (b : Ref sig .tc) (h : b ∉ hostOps3_W) : W7 m ρ c (Proc.devRef .tc b) = W6 m ρ c (Proc.devRef .tc b) :=
  StableHlo.after_of_writes_sub hostOps3 _ hostOps3_writes h
abbrev W8 : Dev nD → Valuation τ sig (Elt F) := fun c => StableHlo.after hostOps3_1 (W7 m ρ c)
theorem keep8 (c : Dev nD) (b : Ref sig .tc) (h : b ∉ hostOps3_1_W) : W8 m ρ c (Proc.devRef .tc b) = W7 m ρ c (Proc.devRef .tc b) :=
  StableHlo.after_of_writes_sub hostOps3_1 _ hostOps3_1_writes h
abbrev V8 : (c : Dev nD) → (b : Ref sig .tc) → Buf (Elt F) ((c : Thread nD τ).loc b) := fun c b => W8 m ρ c b
def W9 (c : Dev nD) : Valuation τ sig (Elt F) :=
  withArrays spec3 c (W8 m ρ c) fun w => (dat3 (V8 m ρ) c).arrAt w cfg3.N
theorem W9_arr (c : Dev nD) (w : Fin cfg3.W) :
    W9 m ρ c (Proc.devRef .tc (arrRef spec3 w)) = (dat3 (V8 m ρ) c).arrAt w cfg3.N :=
  Pipeline.withArrays_arr spec3 launch3.win.arr_inj c _ _ w
abbrev V9 : (c : Dev nD) → (b : Ref sig .tc) → Buf (Elt F) ((c : Thread nD τ).loc b) := fun c b => W9 m ρ c b
theorem arrsAt3 (c : Dev nD) (w : Fin cfg3.W) : (dat3 (V8 m ρ) c).arrAt w cfg3.N = V9 m ρ c (arrRef spec3 w) :=
  (W9_arr m ρ c w).symm
theorem others3 (c : Dev nD) : ∀ b, b ∉ Finset.univ.image (arrRef spec3) → V9 m ρ c b = V8 m ρ c b :=
  withArrays_not_mem (cfg := cfg3) _ _
theorem keep9 (c : Dev nD) (b : Ref sig .tc) (h : b ≠ main_v52) : W9 m ρ c (Proc.devRef .tc b) = W8 m ρ c (Proc.devRef .tc b) :=
  withArrays_keep (dat3 (V8 m ρ) c) _ launch3.win.arr_inj (dat3_A _ c) 5 (by decide) b h
def W10 (c : Dev nD) : Valuation τ sig (Elt F) :=
  withArrays spec4 c (W9 m ρ c) fun w => (dat4 (V9 m ρ) c).arrAt w cfg4.N
theorem W10_arr (c : Dev nD) (w : Fin cfg4.W) :
    W10 m ρ c (Proc.devRef .tc (arrRef spec4 w)) = (dat4 (V9 m ρ) c).arrAt w cfg4.N :=
  Pipeline.withArrays_arr spec4 launch4.win.arr_inj c _ _ w
abbrev V10 : (c : Dev nD) → (b : Ref sig .tc) → Buf (Elt F) ((c : Thread nD τ).loc b) := fun c b => W10 m ρ c b
theorem arrsAt4 (c : Dev nD) (w : Fin cfg4.W) : (dat4 (V9 m ρ) c).arrAt w cfg4.N = V10 m ρ c (arrRef spec4 w) :=
  (W10_arr m ρ c w).symm
theorem others4 (c : Dev nD) : ∀ b, b ∉ Finset.univ.image (arrRef spec4) → V10 m ρ c b = V9 m ρ c b :=
  withArrays_not_mem (cfg := cfg4) _ _
theorem keep10 (c : Dev nD) (b : Ref sig .tc) (h : b ≠ main_v53) : W10 m ρ c (Proc.devRef .tc b) = W9 m ρ c (Proc.devRef .tc b) :=
  withArrays_keep (dat4 (V9 m ρ) c) _ launch4.win.arr_inj (dat4_A _ c) 2 (by decide) b h
abbrev W11 : Dev nD → Valuation τ sig (Elt F) := fun c => StableHlo.after hostOps5 (W10 m ρ c)
theorem keep11 (c : Dev nD) (b : Ref sig .tc) (h : b ∉ hostOps5_W) : W11 m ρ c (Proc.devRef .tc b) = W10 m ρ c (Proc.devRef .tc b) :=
  StableHlo.after_of_writes_sub hostOps5 _ hostOps5_writes h
abbrev W12 : Dev nD → Valuation τ sig (Elt F) := fun c => StableHlo.after hostOps5_1 (W11 m ρ c)
theorem keep12 (c : Dev nD) (b : Ref sig .tc) (h : b ∉ hostOps5_1_W) : W12 m ρ c (Proc.devRef .tc b) = W11 m ρ c (Proc.devRef .tc b) :=
  StableHlo.after_of_writes_sub hostOps5_1 _ hostOps5_1_writes h
abbrev V12 : (c : Dev nD) → (b : Ref sig .tc) → Buf (Elt F) ((c : Thread nD τ).loc b) := fun c b => W12 m ρ c b
def W13 (c : Dev nD) : Valuation τ sig (Elt F) :=
  withArrays spec5 c (W12 m ρ c) fun w => (dat5 (V12 m ρ) c).arrAt w cfg5.N
theorem W13_arr (c : Dev nD) (w : Fin cfg5.W) :
    W13 m ρ c (Proc.devRef .tc (arrRef spec5 w)) = (dat5 (V12 m ρ) c).arrAt w cfg5.N :=
  Pipeline.withArrays_arr spec5 launch5.win.arr_inj c _ _ w
abbrev V13 : (c : Dev nD) → (b : Ref sig .tc) → Buf (Elt F) ((c : Thread nD τ).loc b) := fun c b => W13 m ρ c b
theorem arrsAt5 (c : Dev nD) (w : Fin cfg5.W) : (dat5 (V12 m ρ) c).arrAt w cfg5.N = V13 m ρ c (arrRef spec5 w) :=
  (W13_arr m ρ c w).symm
theorem others5 (c : Dev nD) : ∀ b, b ∉ Finset.univ.image (arrRef spec5) → V13 m ρ c b = V12 m ρ c b :=
  withArrays_not_mem (cfg := cfg5) _ _
theorem keep13 (c : Dev nD) (b : Ref sig .tc) (h : b ≠ main_v64) : W13 m ρ c (Proc.devRef .tc b) = W12 m ρ c (Proc.devRef .tc b) :=
  withArrays_keep (dat5 (V12 m ρ) c) _ launch5.win.arr_inj (dat5_A _ c) 5 (by decide) b h
def W14 (c : Dev nD) : Valuation τ sig (Elt F) :=
  withArrays spec6 c (W13 m ρ c) fun w => (dat6 (V13 m ρ) c).arrAt w cfg6.N
theorem W14_arr (c : Dev nD) (w : Fin cfg6.W) :
    W14 m ρ c (Proc.devRef .tc (arrRef spec6 w)) = (dat6 (V13 m ρ) c).arrAt w cfg6.N :=
  Pipeline.withArrays_arr spec6 launch6.win.arr_inj c _ _ w
abbrev V14 : (c : Dev nD) → (b : Ref sig .tc) → Buf (Elt F) ((c : Thread nD τ).loc b) := fun c b => W14 m ρ c b
theorem arrsAt6 (c : Dev nD) (w : Fin cfg6.W) : (dat6 (V13 m ρ) c).arrAt w cfg6.N = V14 m ρ c (arrRef spec6 w) :=
  (W14_arr m ρ c w).symm
theorem others6 (c : Dev nD) : ∀ b, b ∉ Finset.univ.image (arrRef spec6) → V14 m ρ c b = V13 m ρ c b :=
  withArrays_not_mem (cfg := cfg6) _ _
theorem keep14 (c : Dev nD) (b : Ref sig .tc) (h : b ≠ main_v65) : W14 m ρ c (Proc.devRef .tc b) = W13 m ρ c (Proc.devRef .tc b) :=
  withArrays_keep (dat6 (V13 m ρ) c) _ launch6.win.arr_inj (dat6_A _ c) 1 (by decide) b h
abbrev W15 : Dev nD → Valuation τ sig (Elt F) := fun c => StableHlo.after hostOps7 (W14 m ρ c)
abbrev W16 : Dev nD → Valuation τ sig (Elt F) := fun c => StableHlo.after hostOps7_1 (W15 m ρ c)
abbrev W17 : Dev nD → Valuation τ sig (Elt F) := fun c => StableHlo.after hostOps7_2 (W16 m ρ c)

theorem from0_1 (c : Dev nD) (b : Ref sig .tc) (h : b ∉ hostOps0_W) :
    W1 m ρ c (Proc.devRef .tc b) = m ((c : Thread nD τ).loc b) :=
  StableHlo.after_of_writes_sub hostOps0 _ hostOps0_writes h
theorem from0_2 (c : Dev nD) (b : Ref sig .tc) (h : b ∉ hostOps0_W ∧ b ≠ main_v29) :
    W2 m ρ c (Proc.devRef .tc b) = m ((c : Thread nD τ).loc b) :=
  (keep2 m ρ c b h.2).trans (from0_1 m ρ c b h.1)
theorem from0_5 (c : Dev nD) (b : Ref sig .tc) (h : b ∉ hostOps0_W ∧ b ≠ main_v29 ∧ b ∉ hostOps1_W ∧ b ∉ hostOps1_1_W ∧ b ≠ main_v40) :
    W5 m ρ c (Proc.devRef .tc b) = m ((c : Thread nD τ).loc b) :=
  let ⟨h1, h2, h3, h4, h5⟩ := h
  (keep5 m ρ c b h5).trans <| (keep4 m ρ c b h4).trans <| (keep3 m ρ c b h3).trans <| from0_2 m ρ c b ⟨h1, h2⟩
theorem from0_6 (c : Dev nD) (b : Ref sig .tc) (h : b ∉ hostOps0_W ∧ b ≠ main_v29 ∧ b ∉ hostOps1_W ∧ b ∉ hostOps1_1_W ∧ b ≠ main_v40 ∧ b ≠ main_v41) :
    W6 m ρ c (Proc.devRef .tc b) = m ((c : Thread nD τ).loc b) :=
  let ⟨h1, h2, h3, h4, h5, h6⟩ := h
  (keep6 m ρ c b h6).trans <| from0_5 m ρ c b ⟨h1, h2, h3, h4, h5⟩
theorem from0_9 (c : Dev nD) (b : Ref sig .tc) (h : b ∉ hostOps0_W ∧ b ≠ main_v29 ∧ b ∉ hostOps1_W ∧ b ∉ hostOps1_1_W ∧ b ≠ main_v40 ∧ b ≠ main_v41 ∧ b ∉ hostOps3_W ∧ b ∉ hostOps3_1_W ∧ b ≠ main_v52) :
    W9 m ρ c (Proc.devRef .tc b) = m ((c : Thread nD τ).loc b) :=
  let ⟨h1, h2, h3, h4, h5, h6, h7, h8, h9⟩ := h
  (keep9 m ρ c b h9).trans <| (keep8 m ρ c b h8).trans <| (keep7 m ρ c b h7).trans <| from0_6 m ρ c b ⟨h1, h2, h3, h4, h5, h6⟩
theorem from0_10 (c : Dev nD) (b : Ref sig .tc) (h : b ∉ hostOps0_W ∧ b ≠ main_v29 ∧ b ∉ hostOps1_W ∧ b ∉ hostOps1_1_W ∧ b ≠ main_v40 ∧ b ≠ main_v41 ∧ b ∉ hostOps3_W ∧ b ∉ hostOps3_1_W ∧ b ≠ main_v52 ∧ b ≠ main_v53) :
    W10 m ρ c (Proc.devRef .tc b) = m ((c : Thread nD τ).loc b) :=
  let ⟨h1, h2, h3, h4, h5, h6, h7, h8, h9, h10⟩ := h
  (keep10 m ρ c b h10).trans <| from0_9 m ρ c b ⟨h1, h2, h3, h4, h5, h6, h7, h8, h9⟩
theorem from0_14 (c : Dev nD) (b : Ref sig .tc) (h : b ∉ hostOps0_W ∧ b ≠ main_v29 ∧ b ∉ hostOps1_W ∧ b ∉ hostOps1_1_W ∧ b ≠ main_v40 ∧ b ≠ main_v41 ∧ b ∉ hostOps3_W ∧ b ∉ hostOps3_1_W ∧ b ≠ main_v52 ∧ b ≠ main_v53 ∧ b ∉ hostOps5_W ∧ b ∉ hostOps5_1_W ∧ b ≠ main_v64 ∧ b ≠ main_v65) :
    W14 m ρ c (Proc.devRef .tc b) = m ((c : Thread nD τ).loc b) :=
  let ⟨h1, h2, h3, h4, h5, h6, h7, h8, h9, h10, h11, h12, h13, h14⟩ := h
  (keep14 m ρ c b h14).trans <| (keep13 m ρ c b h13).trans <| (keep12 m ρ c b h12).trans <| (keep11 m ρ c b h11).trans <|
    from0_10 m ρ c b ⟨h1, h2, h3, h4, h5, h6, h7, h8, h9, h10⟩
theorem W17_of_untouched (c : Dev nD) (b : Ref sig .tc)
    (h : b ∉ hostOps0_W ∧ b ∉ hostOps1_W ∧ b ∉ hostOps1_1_W ∧ b ∉ hostOps3_W ∧ b ∉ hostOps3_1_W ∧ b ∉ hostOps5_W ∧ b ∉ hostOps5_1_W ∧ b ∉ hostOps7_W ∧ b ∉ hostOps7_1_W ∧ b ∉ hostOps7_2_W ∧ b ≠ main_v29 ∧ b ≠ main_v40 ∧ b ≠ main_v41 ∧ b ≠ main_v52 ∧ b ≠ main_v53 ∧ b ≠ main_v64 ∧ b ≠ main_v65) :
    W17 m ρ c (Proc.devRef .tc b) = m ((c : Thread nD τ).loc b) :=
  let ⟨h1, h3, h4, h7, h8, h11, h12, h15, h16, h17, h2, h5, h6, h9, h10, h13, h14⟩ := h
  (StableHlo.after_of_writes_sub hostOps7_2 _ hostOps7_2_writes h17).trans <|
    (StableHlo.after_of_writes_sub hostOps7_1 _ hostOps7_1_writes h16).trans <|
    (StableHlo.after_of_writes_sub hostOps7 _ hostOps7_writes h15).trans <|
    from0_14 m ρ c b ⟨h1, h2, h3, h4, h5, h6, h7, h8, h9, h10, h11, h12, h13, h14⟩

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V5 m ρ) c
  | ⟨3, _⟩ => fun c => dat3 (V8 m ρ) c
  | ⟨4, _⟩ => fun c => dat4 (V9 m ρ) c
  | ⟨5, _⟩ => fun c => dat5 (V12 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W17 m ρ c) ∗ ∃ r, prngReg c r)

end Cert.Kernel.Hand

end
-- ==== Proof.K.Reg6.lean ====
import proofs.«402883_j70007966925398_1_alg».proof.Proof.K.Reg6Data
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev whole6 : Rect S5000x64 := Rect.unit (s := S5000x64) ![0, 0] S5000x64.size inb_S5000x64_S5000x64_0_0

abbrev row6 : Rect S1x64 := Rect.unit (s := S1x64) ![0, 0] S1x64.size inb_S1x64_S1x64_0_0

theorem off_row6 : (![0, 0] : Fin S1x64.rank → ℕ) = fun _ => 0 := by funext a; fin_cases a <;> rfl
theorem off_whole6 : (![0, 0] : Fin S5000x64.rank → ℕ) = fun _ => 0 := by funext a; fin_cases a <;> rfl

theorem ld_row6 {κ : Kind} {sp : Space} (v : View sig κ sp S1x64 .f32) (f : v.ty.Contents (Elt F)) :
    v.readAt (Elt F) row6.toLoadRect f = v.read (Elt F) f := View.ld_unit_zero off_row6 _ _
theorem ld_whole6 {κ : Kind} {sp : Space} (v : View sig κ sp S5000x64 .f32) (f : v.ty.Contents (Elt F)) :
    v.readAt (Elt F) whole6.toLoadRect f = v.read (Elt F) f := View.ld_unit_zero off_whole6 _ _

theorem read_row_store {κ : Kind} {sp : Space} (v : View sig κ sp S1x64 .f32) (f : v.ty.Contents (Elt F)) (p : Vec F S1x64 .f32)
    (L : List (View.Piece (Elt F) S1x64 .f32)) : v.read (Elt F) (v.writes (Elt F) f (⟨row6, p⟩ :: L)) = p :=
  by
  have hcov : ∀ y : S1x64.Idx, ∃ pc ∈ ((⟨row6, p⟩ : View.Piece (Elt F) S1x64 .f32) :: L), y ∈ pc.1.set :=
    fun y => ⟨⟨row6, p⟩, List.mem_cons_self, View.mem_set_unit_zero off_row6 inb_S1x64_S1x64_0_0 y⟩
  rw [View.read_writes_eq_canon v f _ hcov]
  exact View.canon_cons_unit_zero off_row6 inb_S1x64_S1x64_0_0 p L

abbrev cond6_0 (i : grid6.Coords) : Prop :=
  (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

theorem hcond6_1 : ∀ t : Fin cfg6.N, k6_cond2 (grid6.coords t) = 1#1 ↔ t.val = 9 :=
  (by decide +kernel : ∀ t : Fin grid6.N, k6_cond2 (grid6.coords t) = 1#1 ↔ t.val = 9)

theorem idleAt6_1 : ∀ t : Fin cfg6.N, ¬k6_cond2 (grid6.coords t) = 1#1 → idle6 1 (grid6.coords t) = true := by decide +kernel
theorem noFlush6_1 : ∀ t : Fin cfg6.N, ¬k6_cond2 (grid6.coords t) = 1#1 → (cfg6.win 1).flush t = false := by decide +kernel
theorem liveAt6_1 : ∀ t : Fin cfg6.N, k6_cond2 (grid6.coords t) = 1#1 → idle6 1 (grid6.coords t) = false := by decide +kernel

section
variable (c : Dev nD) (E : Set ℕ) (i : grid6.Coords)
  (arg1 : Memref sig .tc .vmem S5000x64 .f32) (harg1 : arg1.IsWhole)
  (arg2 : Memref sig .tc .vmem S1x64 .f32) (harg2 : arg2.IsWhole) (arg3 : Memref sig .tc .vmem S1x64 .f32) (harg3 : arg3.IsWhole)
  (x0 : Vec F S5000x64 .f32)

theorem run6_AB (hc1 : ¬k6_cond2 i = 1#1) (xi a a0 : Vec F S1x64 .f32) (ha : a0 = if cond6_0 i then k6_pay1 (F := F) else a)
    (K : PUnit → sProp 𝕄) :
    iprop(owns (c : Thread nD τ) arg1 fullShare x0 ∗ owns (c : Thread nD τ) arg2 fullShare xi ∗ owns (c : Thread nD τ) arg3 fullShare a
        ∗ (iprop(owns (c : Thread nD τ) arg1 fullShare x0 ∗ owns (c : Thread nD τ) arg2 fullShare xi
            ∗ owns (c : Thread nD τ) arg3 fullShare (k6_pay2 a0 x0)) -∗ K ⟨⟩))
      ⊢ wp frame (wpE (defs₀ (F := F)) Variants.none c none) E (cc6__mean_pool_kernel i arg1 harg1 arg2 harg2 arg3 harg3) K := by
  simp only [cc6__mean_pool_kernel_eq_skeleton]; unfold cc6__mean_pool_kernel_skel
  unfold owns
  iintro ⟨⟨%f0, %hf0, H0⟩, ⟨%f1, %hf1, H1⟩, ⟨%f2, %hf2, H2⟩, Hk⟩
  subst hf0; subst hf1; subst hf2; subst ha
  by_cases hc0 : cond6_0 i
  all_goals
    sl_exec (disch := first | exact hc0 | exact hc1)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    refine (read_row_store _ _ _ _).trans ?_
  · rw [if_pos hc0]; sl_unfold_run_names; rw [View.readCov_cons_toLoadRect, ld_whole6]
  · rw [if_neg hc0, ld_row6, ld_whole6]

theorem run6_C (hc0 : ¬cond6_0 i) (hc1 : k6_cond2 i = 1#1) (a : Vec F S1x64 .f32) (K : PUnit → sProp 𝕄) :
    iprop(owns (c : Thread nD τ) arg1 fullShare x0 ∗ (∃ d, owns (c : Thread nD τ) arg2 fullShare d) ∗ owns (c : Thread nD τ) arg3 fullShare a
        ∗ (iprop(owns (c : Thread nD τ) arg1 fullShare x0 ∗ owns (c : Thread nD τ) arg2 fullShare (k6_pay3 (k6_pay2 a x0))
            ∗ owns (c : Thread nD τ) arg3 fullShare (k6_pay2 a x0)) -∗ K ⟨⟩))
      ⊢ wp frame (wpE (defs₀ (F := F)) Variants.none c none) E (cc6__mean_pool_kernel i arg1 harg1 arg2 harg2 arg3 harg3) K := by
  simp only [cc6__mean_pool_kernel_eq_skeleton]; unfold cc6__mean_pool_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  isplitl [H1]
  · iexists _; isplitr
    swap; · iexact H1
    ipureintro
    refine (read_row_store _ _ _ _).trans ?_
    sl_unfold_run_names
    rw [View.readCov_cons_toLoadRect]
    rw [ld_row6, ld_whole6]
  iexists _; isplitr
  swap; · iexact H2
  ipureintro
  sl_unfold_run_names
  refine (read_row_store _ _ _ _).trans ?_
  rw [ld_row6, ld_whole6]
end

theorem obligation6 (c : Dev nD) : BodyObligation (dat6 (F := F) V c) (defs₀ (F := F)) Variants.none () Set.univ := fun t => by
  rw [bigSep_W6, bigSep_W6]
  change _ ⊢ wp frame _ _ (bodyAt6 t) _
  unfold bodyAt6
  simp only [dat6_before0]
  rw [show (dat6 V c).owesAt () t.succ = (dat6 V c).owesAt () t.castSucc from rfl,
    dat6_Phi, dat6_Phi, Fin.coe_castSucc, Fin.val_succ, Phi6_succ, dat6_after0]
  by_cases h9 : t.val = 9
  ·
    have hc1 : k6_cond2 (grid6.coords t) = 1#1 := (hcond6_1 t).mpr h9
    have h0 : t.val ≠ 0 := by omega
    have hc0 : ¬cond6_0 (grid6.coords t) := fun h => h0 ((hcond6_0 t).mp h)
    simp only [liveAt6_1 t hc1]
    rw [dat6_after1, Phi6_pos V c _ h0, acc6_later V c t h0]
    iintro ⟨⟨HS, HR, Hg⟩, Ho, ⟨%d0, H0⟩, ⟨%d1, H1⟩⟩
    iapply (run6_C c Set.univ _ _ _ _ _ _ _ (blk6 V c 0 t) hc0 hc1 (acc6 V c (t.val - 1)) _)
    iframe H0 HS
    isplitl [H1]; · iexists _; iexact H1
    iintro ⟨H0, H1, HS⟩
    iframe
  · have hc1 : ¬k6_cond2 (grid6.coords t) = 1#1 := fun h => h9 ((hcond6_1 t).mp h)
    simp only [idleAt6_1 t hc1, noFlush6_1 t hc1]
    by_cases h0 : t.val = 0
    ·
      have hc0 : cond6_0 (grid6.coords t) := (hcond6_0 t).mpr h0
      rw [Phi6_zero V c _ h0, acc6_first V c t h0]
      iintro ⟨⟨⟨%a, HS⟩, HR, Hg⟩, Ho, ⟨%d0, H0⟩, ⟨%d1, H1⟩⟩
      iapply (run6_AB c Set.univ _ _ _ _ _ _ _ (blk6 V c 0 t) hc1 ((dat6 V c).before 1 t d1) a _ (if_pos hc0).symm _)
      iframe H0 H1 HS
      iintro ⟨H0, H1, HS⟩
      iframe HS HR Hg Ho H0
      iexists d1; iexact H1
    ·
      have hc0 : ¬cond6_0 (grid6.coords t) := fun h => h0 ((hcond6_0 t).mp h)
      rw [Phi6_pos V c _ h0, acc6_later V c t h0]
      iintro ⟨⟨HS, HR, Hg⟩, Ho, ⟨%d0, H0⟩, ⟨%d1, H1⟩⟩
      iapply (run6_AB c Set.univ _ _ _ _ _ _ _ (blk6 V c 0 t) hc1 ((dat6 V c).before 1 t d1) (acc6 V c (t.val - 1)) _ (if_neg hc0).symm _)
      iframe H0 H1 HS
      iintro ⟨H0, H1, HS⟩
      iframe HS HR Hg Ho H0
      iexists d1; iexact H1

theorem enter6 (c : Dev nD) : iprop((∃ r, prngReg c r) ∗ Pipeline.scopedRest (Ix := Unit) (Name := ℕ) (U := UR sig nD τ) (Lvl := ℕ) (Val := Elt F) spec6 c) ⊢ (dat6 V c).Φ 0 := by
  rw [dat6_Phi, show (0 : Fin (cfg6.N + 1)).val = 0 from rfl, Phi6_zero V c 0 rfl, scopedRest6_split]
  iintro ⟨Hg, ⟨%f, Hs⟩, HR⟩
  iframe HR Hg
  iexists f; rw [owns_whole]; iexact Hs

theorem leave6 (c : Dev nD) : (dat6 V c).Φ (Fin.last cfg6.N) ⊢ iprop((∃ r, prngReg c r) ∗ Pipeline.scopedRest (Ix := Unit) (Name := ℕ) (U := UR sig nD τ) (Lvl := ℕ) (Val := Elt F) spec6 c) := by
  rw [dat6_Phi, Fin.val_last, show cfg6.N = 9 + 1 from N_6, Phi6_succ, scopedRest6_split, owns_whole]
  iintro ⟨Hs, HR, Hg⟩
  iframe Hg HR
  iexists _; iexact Hs

end Cert.Kernel.Hand

end
-- ==== Proof.K.Segs.lean ====
import proofs.«402883_j70007966925398_1_alg».proof.Proof.K.Fold
import proofs.«402883_j70007966925398_1_alg».proof.Proof.K.Reg6

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)

variable {F : FTy → Type} [FloatOps F]

variable (m : (ℓ : Loc nD τ sig) → Buf (Elt F) ℓ) (ρ : Dev nD → PrngReg)

variable {p : Fin 7} (l : Pipeline.LaunchFacts (nD := nD) (τ := τ) cfgs p) (Wa Wb : Dev nD → Valuation τ sig (Elt F))

-- A region as an item from the contents `Wa` to `Wb`, which hold its arrays at their first and last values and agree elsewhere.
def regOf
    (hb : ∀ c, BodyObligation (pdats m ρ p c) (defs₀ (F := F)) Variants.none () Set.univ)
    (hN : ∀ c w, (pdats m ρ p c).arrAt w (cfgs p).N = Wb c (Pipeline.arrRef (cfgs p).spec w))
    (hoth : ∀ c (b : Ref sig .tc), b ∉ Finset.univ.image (Pipeline.arrRef (cfgs p).spec) → Wb c b = Wa c b)
    (hA : ∀ c w, (pdats m ρ p c).A w = Wa c (Pipeline.arrRef (cfgs p).spec w) := by exact fun _ _ => rfl)
    (hq : ∀ c w, (pdats m ρ p c).q w = fullShare := by exact fun _ _ => rfl)
    (how : ∀ c t, (pdats m ρ p c).owed t = 0 := by exact fun _ _ => rfl)
    (hrec : ∀ c x, x ∈ (pdats m ρ p c).recorded 0 := by exact fun _ _ => trivial)
    (hent : ∀ c, iprop((∃ r, prngReg c r) ∗ Pipeline.scopedRest (cfgs p).spec c) ⊢ (pdats m ρ p c).Φ 0 := by exact fun _ => sep_comm)
    (hlv : ∀ c, (pdats m ρ p c).Φ (Fin.last (cfgs p).N) ⊢ iprop((∃ r, prngReg c r) ∗ Pipeline.scopedRest (cfgs p).spec c) := by exact fun _ => sep_comm) :
    Pipeline.RegionSeg (pcfgs (F := F)) adm (pdats m ρ) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (cfgs p).spec c fun b => Wa c b
  hentry c := by
    rw [Pipeline.ownSems0_none]
    have hsplit := Pipeline.arrays_of_unscopedBufs (p := p) (pcfgs (F := F)) adm (pdats m ρ) l.win l.arr_whole c
      ((pdats m ρ p c).share_full (hq c)) (fun b => Wa c b) (hA c)
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [how]
    iexists W; iframe HO; ipureintro; exact fun _ _ => Or.inl (hrec c _)
  hin c := by
    iintro ⟨Hp, -, Hr⟩
    iapply hent c
    isplitl [Hp] <;> iassumption
  hout c := by rw [Pipeline.ownSems0_none]; exact (hlv c).trans (sep_mono_r emp_sep_intro)
  hexit c := by
    have hjoin := Pipeline.unscopedBufs_of_arrays (p := p) (pcfgs (F := F)) adm
      l.win l.arr_whole c (pdats m ρ) ((pdats m ρ p c).share_full (hq c))
      (fun b => Wa c b) (fun b => Wb c b) ((pdats m ρ p c).arrAt · (cfgs p).N) (hN c) (hoth c)
    rw [Pipeline.unscopedBufs_held] at hjoin
    unfold Pipeline.Dat.owesAt Pipeline.owesWithin; rw [how]
    iintro ⟨Ha, ⟨%W, -, HO⟩, HY, Hrest⟩
    imodintro
    isplitl [Ha Hrest]
    · iapply hjoin; iframe
    isplitl [HY]; · iexact HY
    iexists W; iexact HO

def reg0 := regOf m ρ launch0 (W1 m ρ) (W2 m ρ) (obligation0 (V1 m ρ)) (arrsAt0 m ρ) (others0 m ρ)

def reg1 := regOf m ρ launch1 (W4 m ρ) (W5 m ρ) (obligation1 (V4 m ρ)) (arrsAt1 m ρ) (others1 m ρ)

def reg2 := regOf m ρ launch2 (W5 m ρ) (W6 m ρ) (obligation2 (V5 m ρ)) (arrsAt2 m ρ) (others2 m ρ)

def reg3 := regOf m ρ launch3 (W8 m ρ) (W9 m ρ) (obligation3 (V8 m ρ)) (arrsAt3 m ρ) (others3 m ρ)

def reg4 := regOf m ρ launch4 (W9 m ρ) (W10 m ρ) (obligation4 (V9 m ρ)) (arrsAt4 m ρ) (others4 m ρ)

def reg5 := regOf m ρ launch5 (W12 m ρ) (W13 m ρ) (obligation5 (V12 m ρ)) (arrsAt5 m ρ) (others5 m ρ)

def reg6 := regOf m ρ launch6 (W13 m ρ) (W14 m ρ) (obligation6 (V13 m ρ)) (arrsAt6 m ρ) (others6 m ρ)
    (hent := enter6 (V13 m ρ)) (hlv := leave6 (V13 m ρ))

end Cert.Kernel.Hand

end
-- ==== Proof.K.Run.lean ====
import proofs.«402883_j70007966925398_1_alg».proof.Proof.K.Segs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .region (reg2 m ρ),
    .host (hseg hostOps3 hostOps3_sub hostOps3_fresh (W6 m ρ)),
    .host (hseg hostOps3_1 hostOps3_1_sub hostOps3_1_fresh (W7 m ρ)),
    .region (reg3 m ρ),
    .region (reg4 m ρ),
    .host (hseg hostOps5 hostOps5_sub hostOps5_fresh (W10 m ρ)),
    .host (hseg hostOps5_1 hostOps5_1_sub hostOps5_1_fresh (W11 m ρ)),
    .region (reg5 m ρ),
    .region (reg6 m ρ),
    .host (hseg hostOps7 hostOps7_sub hostOps7_fresh (W14 m ρ)),
    .host (hseg hostOps7_1 hostOps7_1_sub hostOps7_1_fresh (W15 m ρ)),
    .host (hseg hostOps7_2 hostOps7_2_sub hostOps7_2_fresh (W16 m ρ)) ]

theorem main_run (c : Dev nD) : main (F := F) c = Pipeline.Seg.run (segs m ρ) := (main_chain c).trans (by chain_rfl)

theorem run : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := by repeat (refine ⟨fun _ => .rfl, ?_⟩)
               exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun _ h => h)

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17]

-- No item writes an argument array, so the last contents of each are the first.
theorem run_result : θ_run defs (onTc (τ := τ) (main (F := F))) ⟨m, fun _ => 0, ρ⟩ (fun r => ∀ c : Dev nD,
      r.2.mem ((c.tc : Thread nD τ).loc main_v72) = W17 m ρ c (Proc.devRef .tc main_v72) ∧ mainArgs.Forall fun b => r.2.mem ((c.tc : Thread nD τ).loc b) = m ((c.tc : Thread nD τ).loc b)) :=
  (θ_run defs _ _).mono (fun r h c => ⟨h c _ (mem_uc main_v72 (by decide)), List.forall_iff_forall_mem.mpr fun b hb =>
    (h c _ (mem_uc b (by decide +revert))).trans (W17_of_untouched m ρ c b (by decide +revert))⟩) (run m ρ)

theorem frame : θ_run defs (onTc (τ := τ) (main (F := F))) ⟨m, fun _ => 0, ρ⟩ (fun r => ∀ c : Dev nD, mainArgs.Forall fun b => r.2.mem ((c.tc : Thread nD τ).loc b) = m ((c.tc : Thread nD τ).loc b)) :=
  (θ_run defs _ _).mono (fun _ h c => (h c).2) (run_result m ρ)

end Cert.Kernel.Hand

end
-- ==== Proof.KI.Reg0.lean ====
import proofs.«402883_j70007966925398_1_alg».proof.Proof.Gen.KernelIdeal.Launch
import proofs.«402883_j70007966925398_1_alg».proof.Proof.Gen.KernelIdeal.Skeleton
import proofs.«402883_j70007966925398_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev wholeX0 : Rect S5000x128 := Rect.unit (s := S5000x128) ![0, 0] S5000x128.size inb_S5000x128_S5000x128_0_0
abbrev wholeW0 : Rect S128x64 := Rect.unit (s := S128x64) ![0, 0] S128x64.size inb_S128x64_S128x64_0_0
abbrev whole0 : Rect S5000x64 := Rect.unit (s := S5000x64) ![0, 0] S5000x64.size inb_S5000x64_S5000x64_0_0

def out0 (x0 : Vec F S5000x128 .f32) (x1 : Vec F S128x64 .f32) : Vec F S5000x64 .f32 :=
  View.canon [⟨whole0, k0_pay1 (View.ld x0 wholeX0) (View.ld x1 wholeW0)⟩]

theorem run_body0 (c : Dev nD) (t : Fin cfg0.N) (x0 : Vec F S5000x128 .f32) (x1 : Vec F S128x64 .f32) (d : Vec F S5000x64 .f32)
    (K : PUnit → sProp (MT nD τ sig Unit (Elt F) ℕ (UR sig nD τ) ℕ)) :
    iprop(owns c.tc (st0_0 t) fullShare x0 ∗ owns c.tc (st0_1 t) fullShare x1 ∗ owns c.tc (st0_2 t) fullShare d
        ∗ (iprop(owns c.tc (st0_0 t) fullShare x0 ∗ owns c.tc (st0_1 t) fullShare x1 ∗ owns c.tc (st0_2 t) fullShare (out0 x0 x1)) -∗ K ⟨⟩))
      ⊢ wp frame (wpE (defs₀ (F := F)) Variants.none c none) Set.univ (bodyAt0 t) K := by
  unfold bodyAt0; simp only [cc0__matmul_kernel_eq_skeleton]; unfold cc0__matmul_kernel_skel
  unfold owns
  iintro ⟨⟨%f0, %hf0, H0⟩, ⟨%f1, %hf1, H1⟩, ⟨%f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := rfl

theorem dat0_after2 (c : Dev nD) (t : Fin cfg0.N) : (dat0 V c).after 2 t = out0 (blk0 V c 0 t) (blk0 V c 1 t) := by dsimp only [dat0]

theorem dat0_in (c : Dev nD) (t : Fin cfg0.N) :
    (∀ d, (dat0 V c).before 0 t d = blk0 V c 0 t) ∧ (dat0 V c).after 0 t = blk0 V c 0 t ∧
    (∀ d, (dat0 V c).before 1 t d = blk0 V c 1 t) ∧ (dat0 V c).after 1 t = blk0 V c 1 t := by
  and_intros <;> first
    | exact fun d => ((dat0 V c).before_in_eq_fetched _ rfl (fun _ => rfl) (fun _ _ _ => rfl) (fun _ => rfl) t d).trans rfl
    | dsimp only [dat0]

theorem obligation0 (c : Dev nD) : BodyObligation (dat0 (F := F) V c) (defs₀ (F := F)) Variants.none () Set.univ := fun t => by
  rw [bigSep_W0, bigSep_W0]
  simp only [dat0_in, dat0_after2]
  show _ ⊢ wp _ _ _ (bodyAt0 t) fun _ => iprop((dat0 V c).Φ t.castSucc ∗ (dat0 V c).owesAt () t.castSucc ∗ _)
  iintro ⟨HΦ, Ho, ⟨%d0, H0⟩, ⟨%d1, H1⟩, ⟨%d2, H2⟩⟩
  iapply (run_body0 c t (blk0 V c 0 t) (blk0 V c 1 t) ((dat0 V c).before 2 t d2) _)
  iframe H0 H1 H2
  iintro ⟨H0, H1, H2⟩
  iframe

end Cert.KernelIdeal.Hand

end
-- ==== Proof.KI.Reg1.lean ====
import proofs.«402883_j70007966925398_1_alg».proof.Proof.Gen.KernelIdeal.Launch
import proofs.«402883_j70007966925398_1_alg».proof.Proof.Gen.KernelIdeal.Skeleton
import proofs.«402883_j70007966925398_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev tile1 : Rect S5000x64 := Rect.unit (s := S5000x64) ![0, 0] S5000x64.size inb_S5000x64_S5000x64_0_0
abbrev row1 : Rect S1x64 := Rect.unit (s := S1x64) ![0, 0] S1x64.size inb_S1x64_S1x64_0_0

def out1 (x0 : Vec F S5000x64 .f32) (x1 x2 x3 : Vec F S1x64 .f32) : Vec F S5000x64 .f32 :=
  View.canon [⟨tile1, k1_pay1 (View.ld x0 tile1) (View.ld x1 row1) (View.ld x2 row1) (View.ld x3 row1)⟩]

theorem run_body1 (c : Dev nD) (t : Fin cfg1.N) (x0 : Vec F S5000x64 .f32) (x1 x2 x3 : Vec F S1x64 .f32) (d : Vec F S5000x64 .f32)
    (K : PUnit → sProp (MT nD τ sig Unit (Elt F) ℕ (UR sig nD τ) ℕ)) :
    iprop(owns c.tc (st1_0 t) fullShare x0 ∗ owns c.tc (st1_1 t) fullShare x1 ∗ owns c.tc (st1_2 t) fullShare x2 ∗ owns c.tc (st1_3 t) fullShare x3 ∗ owns c.tc (st1_4 t) fullShare d
        ∗ (iprop(owns c.tc (st1_0 t) fullShare x0 ∗ owns c.tc (st1_1 t) fullShare x1 ∗ owns c.tc (st1_2 t) fullShare x2 ∗ owns c.tc (st1_3 t) fullShare x3 ∗ owns c.tc (st1_4 t) fullShare (out1 x0 x1 x2 x3)) -∗ K ⟨⟩))
      ⊢ wp frame (wpE (defs₀ (F := F)) Variants.none c none) Set.univ (bodyAt1 t) K := by
  unfold bodyAt1; simp only [cc1__ln_kernel_eq_skeleton]; unfold cc1__ln_kernel_skel
  unfold owns
  iintro ⟨⟨%f0, %hf0, H0⟩, ⟨%f1, %hf1, H1⟩, ⟨%f2, %hf2, H2⟩, ⟨%f3, %hf3, H3⟩, ⟨%f4, -, H4⟩, Hk⟩
  subst hf0; subst hf1; subst hf2; subst hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => out1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := rfl

theorem dat1_after4 (c : Dev nD) (t : Fin cfg1.N) : (dat1 V c).after 4 t = out1 (blk1 V c 0 t) (blk1 V c 1 t) (blk1 V c 2 t) (blk1 V c 3 t) := by dsimp only [dat1]

theorem dat1_in (c : Dev nD) (t : Fin cfg1.N) :
    (∀ d, (dat1 V c).before 0 t d = blk1 V c 0 t) ∧ (dat1 V c).after 0 t = blk1 V c 0 t ∧
    (∀ d, (dat1 V c).before 1 t d = blk1 V c 1 t) ∧ (dat1 V c).after 1 t = blk1 V c 1 t ∧
    (∀ d, (dat1 V c).before 2 t d = blk1 V c 2 t) ∧ (dat1 V c).after 2 t = blk1 V c 2 t ∧
    (∀ d, (dat1 V c).before 3 t d = blk1 V c 3 t) ∧ (dat1 V c).after 3 t = blk1 V c 3 t := by
  and_intros <;> first
    | exact fun d => ((dat1 V c).before_in_eq_fetched _ rfl (fun _ => rfl) (fun _ _ _ => rfl) (fun _ => rfl) t d).trans rfl
    | dsimp only [dat1]

theorem obligation1 (c : Dev nD) : BodyObligation (dat1 (F := F) V c) (defs₀ (F := F)) Variants.none () Set.univ := fun t => by
  rw [bigSep_W1, bigSep_W1]
  simp only [dat1_in, dat1_after4]
  show _ ⊢ wp _ _ _ (bodyAt1 t) fun _ => iprop((dat1 V c).Φ t.castSucc ∗ (dat1 V c).owesAt () t.castSucc ∗ _)
  iintro ⟨HΦ, Ho, ⟨%d0, H0⟩, ⟨%d1, H1⟩, ⟨%d2, H2⟩, ⟨%d3, H3⟩, ⟨%d4, H4⟩⟩
  iapply (run_body1 c t (blk1 V c 0 t) (blk1 V c 1 t) (blk1 V c 2 t) (blk1 V c 3 t) ((dat1 V c).before 4 t d4) _)
  iframe H0 H1 H2 H3 H4
  iintro ⟨H0, H1, H2, H3, H4⟩
  iframe

end Cert.KernelIdeal.Hand

end
-- ==== Proof.KI.Reg2.lean ====
import proofs.«402883_j70007966925398_1_alg».proof.Proof.Gen.KernelIdeal.Launch
import proofs.«402883_j70007966925398_1_alg».proof.Proof.Gen.KernelIdeal.Skeleton
import proofs.«402883_j70007966925398_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev whole2 : Rect S5000x64 := Rect.unit (s := S5000x64) ![0, 0] S5000x64.size inb_S5000x64_S5000x64_0_0
abbrev wholeW2 : Rect S64x64 := Rect.unit (s := S64x64) ![0, 0] S64x64.size inb_S64x64_S64x64_0_0

def out2 (x0 : Vec F S5000x64 .f32) (x1 : Vec F S64x64 .f32) : Vec F S5000x64 .f32 :=
  View.canon [⟨whole2, k2_pay1 (View.ld x0 whole2) (View.ld x1 wholeW2)⟩]

theorem run_body2 (c : Dev nD) (t : Fin cfg2.N) (x0 : Vec F S5000x64 .f32) (x1 : Vec F S64x64 .f32) (d : Vec F S5000x64 .f32)
    (K : PUnit → sProp (MT nD τ sig Unit (Elt F) ℕ (UR sig nD τ) ℕ)) :
    iprop(owns c.tc (st2_0 t) fullShare x0 ∗ owns c.tc (st2_1 t) fullShare x1 ∗ owns c.tc (st2_2 t) fullShare d
        ∗ (iprop(owns c.tc (st2_0 t) fullShare x0 ∗ owns c.tc (st2_1 t) fullShare x1 ∗ owns c.tc (st2_2 t) fullShare (out2 x0 x1)) -∗ K ⟨⟩))
      ⊢ wp frame (wpE (defs₀ (F := F)) Variants.none c none) Set.univ (bodyAt2 t) K := by
  unfold bodyAt2; simp only [cc2__matmul_kernel_eq_skeleton]; unfold cc2__matmul_kernel_skel
  unfold owns
  iintro ⟨⟨%f0, %hf0, H0⟩, ⟨%f1, %hf1, H1⟩, ⟨%f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := rfl

theorem dat2_after2 (c : Dev nD) (t : Fin cfg2.N) : (dat2 V c).after 2 t = out2 (blk2 V c 0 t) (blk2 V c 1 t) := by dsimp only [dat2]

theorem dat2_in (c : Dev nD) (t : Fin cfg2.N) :
    (∀ d, (dat2 V c).before 0 t d = blk2 V c 0 t) ∧ (dat2 V c).after 0 t = blk2 V c 0 t ∧
    (∀ d, (dat2 V c).before 1 t d = blk2 V c 1 t) ∧ (dat2 V c).after 1 t = blk2 V c 1 t := by
  and_intros <;> first
    | exact fun d => ((dat2 V c).before_in_eq_fetched _ rfl (fun _ => rfl) (fun _ _ _ => rfl) (fun _ => rfl) t d).trans rfl
    | dsimp only [dat2]

theorem obligation2 (c : Dev nD) : BodyObligation (dat2 (F := F) V c) (defs₀ (F := F)) Variants.none () Set.univ := fun t => by
  rw [bigSep_W2, bigSep_W2]
  simp only [dat2_in, dat2_after2]
  show _ ⊢ wp _ _ _ (bodyAt2 t) fun _ => iprop((dat2 V c).Φ t.castSucc ∗ (dat2 V c).owesAt () t.castSucc ∗ _)
  iintro ⟨HΦ, Ho, ⟨%d0, H0⟩, ⟨%d1, H1⟩, ⟨%d2, H2⟩⟩
  iapply (run_body2 c t (blk2 V c 0 t) (blk2 V c 1 t) ((dat2 V c).before 2 t d2) _)
  iframe H0 H1 H2
  iintro ⟨H0, H1, H2⟩
  iframe

end Cert.KernelIdeal.Hand

end
-- ==== Proof.KI.Reg3.lean ====
import proofs.«402883_j70007966925398_1_alg».proof.Proof.Gen.KernelIdeal.Launch
import proofs.«402883_j70007966925398_1_alg».proof.Proof.Gen.KernelIdeal.Skeleton
import proofs.«402883_j70007966925398_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev tile3 : Rect S5000x64 := Rect.unit (s := S5000x64) ![0, 0] S5000x64.size inb_S5000x64_S5000x64_0_0
abbrev row3 : Rect S1x64 := Rect.unit (s := S1x64) ![0, 0] S1x64.size inb_S1x64_S1x64_0_0

def out3 (x0 : Vec F S5000x64 .f32) (x1 x2 x3 : Vec F S1x64 .f32) (x4 : Vec F S5000x64 .f32) : Vec F S5000x64 .f32 :=
  View.canon [⟨tile3, k3_pay1 (View.ld x0 tile3) (View.ld x1 row3) (View.ld x2 row3) (View.ld x3 row3) (View.ld x4 tile3)⟩]

theorem run_body3 (c : Dev nD) (t : Fin cfg3.N) (x0 : Vec F S5000x64 .f32) (x1 x2 x3 : Vec F S1x64 .f32) (x4 : Vec F S5000x64 .f32) (d : Vec F S5000x64 .f32)
    (K : PUnit → sProp (MT nD τ sig Unit (Elt F) ℕ (UR sig nD τ) ℕ)) :
    iprop(owns c.tc (st3_0 t) fullShare x0 ∗ owns c.tc (st3_1 t) fullShare x1 ∗ owns c.tc (st3_2 t) fullShare x2 ∗ owns c.tc (st3_3 t) fullShare x3 ∗ owns c.tc (st3_4 t) fullShare x4 ∗ owns c.tc (st3_5 t) fullShare d
        ∗ (iprop(owns c.tc (st3_0 t) fullShare x0 ∗ owns c.tc (st3_1 t) fullShare x1 ∗ owns c.tc (st3_2 t) fullShare x2 ∗ owns c.tc (st3_3 t) fullShare x3 ∗ owns c.tc (st3_4 t) fullShare x4 ∗ owns c.tc (st3_5 t) fullShare (out3 x0 x1 x2 x3 x4)) -∗ K ⟨⟩))
      ⊢ wp frame (wpE (defs₀ (F := F)) Variants.none c none) Set.univ (bodyAt3 t) K := by
  unfold bodyAt3; simp only [cc3__ln_resid_kernel_eq_skeleton]; unfold cc3__ln_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => out3 (blk3 V c 0 t) (blk3 V c 1 t) (blk3 V c 2 t) (blk3 V c 3 t) (blk3 V c 4 t)
  Φ _ := Pipeline.ΦA spec3 c
  q _ := fullShare
  owed _ := 0

theorem dat3_A (c : Dev nD) (w : Fin cfg3.W) : (dat3 V c).A w = V c (Pipeline.arrRef spec3 w) := rfl

theorem dat3_after5 (c : Dev nD) (t : Fin cfg3.N) : (dat3 V c).after 5 t = out3 (blk3 V c 0 t) (blk3 V c 1 t) (blk3 V c 2 t) (blk3 V c 3 t) (blk3 V c 4 t) := by dsimp only [dat3]

theorem dat3_in (c : Dev nD) (t : Fin cfg3.N) :
    (∀ d, (dat3 V c).before 0 t d = blk3 V c 0 t) ∧ (dat3 V c).after 0 t = blk3 V c 0 t ∧
    (∀ d, (dat3 V c).before 1 t d = blk3 V c 1 t) ∧ (dat3 V c).after 1 t = blk3 V c 1 t ∧
    (∀ d, (dat3 V c).before 2 t d = blk3 V c 2 t) ∧ (dat3 V c).after 2 t = blk3 V c 2 t ∧
    (∀ d, (dat3 V c).before 3 t d = blk3 V c 3 t) ∧ (dat3 V c).after 3 t = blk3 V c 3 t ∧
    (∀ d, (dat3 V c).before 4 t d = blk3 V c 4 t) ∧ (dat3 V c).after 4 t = blk3 V c 4 t := by
  and_intros <;> first
    | exact fun d => ((dat3 V c).before_in_eq_fetched _ rfl (fun _ => rfl) (fun _ _ _ => rfl) (fun _ => rfl) t d).trans rfl
    | dsimp only [dat3]

theorem obligation3 (c : Dev nD) : BodyObligation (dat3 (F := F) V c) (defs₀ (F := F)) Variants.none () Set.univ := fun t => by
  rw [bigSep_W3, bigSep_W3]
  simp only [dat3_in, dat3_after5]
  show _ ⊢ wp _ _ _ (bodyAt3 t) fun _ => iprop((dat3 V c).Φ t.castSucc ∗ (dat3 V c).owesAt () t.castSucc ∗ _)
  iintro ⟨HΦ, Ho, ⟨%d0, H0⟩, ⟨%d1, H1⟩, ⟨%d2, H2⟩, ⟨%d3, H3⟩, ⟨%d4, H4⟩, ⟨%d5, H5⟩⟩
  iapply (run_body3 c t (blk3 V c 0 t) (blk3 V c 1 t) (blk3 V c 2 t) (blk3 V c 3 t) (blk3 V c 4 t) ((dat3 V c).before 5 t d5) _)
  iframe H0 H1 H2 H3 H4 H5
  iintro ⟨H0, H1, H2, H3, H4, H5⟩
  iframe

end Cert.KernelIdeal.Hand

end
-- ==== Proof.KI.Reg4.lean ====
import proofs.«402883_j70007966925398_1_alg».proof.Proof.Gen.KernelIdeal.Launch
import proofs.«402883_j70007966925398_1_alg».proof.Proof.Gen.KernelIdeal.Skeleton
import proofs.«402883_j70007966925398_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev whole4 : Rect S5000x64 := Rect.unit (s := S5000x64) ![0, 0] S5000x64.size inb_S5000x64_S5000x64_0_0
abbrev wholeW4 : Rect S64x64 := Rect.unit (s := S64x64) ![0, 0] S64x64.size inb_S64x64_S64x64_0_0

def out4 (x0 : Vec F S5000x64 .f32) (x1 : Vec F S64x64 .f32) : Vec F S5000x64 .f32 :=
  View.canon [⟨whole4, k4_pay1 (View.ld x0 whole4) (View.ld x1 wholeW4)⟩]

theorem run_body4 (c : Dev nD) (t : Fin cfg4.N) (x0 : Vec F S5000x64 .f32) (x1 : Vec F S64x64 .f32) (d : Vec F S5000x64 .f32)
    (K : PUnit → sProp (MT nD τ sig Unit (Elt F) ℕ (UR sig nD τ) ℕ)) :
    iprop(owns c.tc (st4_0 t) fullShare x0 ∗ owns c.tc (st4_1 t) fullShare x1 ∗ owns c.tc (st4_2 t) fullShare d
        ∗ (iprop(owns c.tc (st4_0 t) fullShare x0 ∗ owns c.tc (st4_1 t) fullShare x1 ∗ owns c.tc (st4_2 t) fullShare (out4 x0 x1)) -∗ K ⟨⟩))
      ⊢ wp frame (wpE (defs₀ (F := F)) Variants.none c none) Set.univ (bodyAt4 t) K := by
  unfold bodyAt4; simp only [cc4__matmul_kernel_eq_skeleton]; unfold cc4__matmul_kernel_skel
  unfold owns
  iintro ⟨⟨%f0, %hf0, H0⟩, ⟨%f1, %hf1, H1⟩, ⟨%f2, -, H2⟩, Hk⟩
  subst hf0; subst hf1
  sl_exec
  sl_step
  iapply Hk
  isplitl [H0]; · iexists f0; iframe H0; ipureintro; rfl
  isplitl [H1]; · iexists f1; iframe H1; ipureintro; rfl
  iexists _; iframe H2
  ipureintro
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => out4 (blk4 V c 0 t) (blk4 V c 1 t)
  Φ _ := Pipeline.ΦA spec4 c
  q _ := fullShare
  owed _ := 0

theorem dat4_A (c : Dev nD) (w : Fin cfg4.W) : (dat4 V c).A w = V c (Pipeline.arrRef spec4 w) := rfl

theorem dat4_after2 (c : Dev nD) (t : Fin cfg4.N) : (dat4 V c).after 2 t = out4 (blk4 V c 0 t) (blk4 V c 1 t) := by dsimp only [dat4]

theorem dat4_in (c : Dev nD) (t : Fin cfg4.N) :
    (∀ d, (dat4 V c).before 0 t d = blk4 V c 0 t) ∧ (dat4 V c).after 0 t = blk4 V c 0 t ∧
    (∀ d, (dat4 V c).before 1 t d = blk4 V c 1 t) ∧ (dat4 V c).after 1 t = blk4 V c 1 t := by
  and_intros <;> first
    | exact fun d => ((dat4 V c).before_in_eq_fetched _ rfl (fun _ => rfl) (fun _ _ _ => rfl) (fun _ => rfl) t d).trans rfl
    | dsimp only [dat4]

theorem obligation4 (c : Dev nD) : BodyObligation (dat4 (F := F) V c) (defs₀ (F := F)) Variants.none () Set.univ := fun t => by
  rw [bigSep_W4, bigSep_W4]
  simp only [dat4_in, dat4_after2]
  show _ ⊢ wp _ _ _ (bodyAt4 t) fun _ => iprop((dat4 V c).Φ t.castSucc ∗ (dat4 V c).owesAt () t.castSucc ∗ _)
  iintro ⟨HΦ, Ho, ⟨%d0, H0⟩, ⟨%d1, H1⟩, ⟨%d2, H2⟩⟩
  iapply (run_body4 c t (blk4 V c 0 t) (blk4 V c 1 t) ((dat4 V c).before 2 t d2) _)
  iframe H0 H1 H2
  iintro ⟨H0, H1, H2⟩
  iframe

end Cert.KernelIdeal.Hand

end
-- ==== Proof.KI.Reg5.lean ====
import proofs.«402883_j70007966925398_1_alg».proof.Proof.Gen.KernelIdeal.Launch
import proofs.«402883_j70007966925398_1_alg».proof.Proof.Gen.KernelIdeal.Skeleton
import proofs.«402883_j70007966925398_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal.Gen Idealize.ShloMosaic Idealize.ShloMosaic.TcCoe Idealize.SL Idealize.SL.RA Idealize.SL.BI Idealize.SL.BI.BIBase Idealize.SL.Sem
open scoped Idealize.SL.BI
open Idealize.ShloMosaic.Pipeline (Dat BodyObligation)

variable {F : FTy → Type} [FloatOps F] [Named F]

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev tile5 : Rect S5000x64 := Rect.unit (s := S5000x64) ![0, 0] S5000x64.size inb_S5000x64_S5000x64_0_0
abbrev row5 : Rect S1x64 := Rect.unit (s := S1x64) ![0, 0] S1x64.size inb_S1x64_S1x64_0_0

def out5 (x0 : Vec F S5000x64 .f32) (x1 x2 x3 : Vec F S1x64 .f32) (x4 : Vec F S5000x64 .f32) : Vec F S5000x64 .f32 :=
  View.canon [⟨tile5, k5_pay1 (View.ld x0 tile5) (View.ld x1 row5) (View.ld x2 row5) (View.ld x3 row5) (View.ld x4 tile5)⟩]

theorem run_body5 (c : Dev nD) (t : Fin cfg5.N) (x0 : Vec F S5000x64 .f32) (x1 x2 x3 : Vec F S1x64 .f32) (x4 : Vec F S5000x64 .f32) (d : Vec F S5000x64 .f32)
    (K : PUnit → sProp (MT nD τ sig Unit (Elt F) ℕ (UR sig nD τ) ℕ)) :
    iprop(owns c.tc (st5_0 t) fullShare x0 ∗ owns c.tc (st5_1 t) fullShare x1 ∗ owns c.tc (st5_2 t) fullShare x2 ∗ owns c.tc (st5_3 t) fullShare x3 ∗ owns c.tc (st5_4 t) fullShare x4 ∗ owns c.tc (st5_5 t) fullShare d
        ∗ (iprop(owns c.tc (st5_0 t) fullShare x0 ∗ owns c.tc (st5_1 t) fullShare x1 ∗ owns c.tc (st5_2 t) fullShare x2 ∗ owns c.tc (st5_3 t) fullShare x3 ∗ owns c.tc (st5_4 t) fullShare x4 ∗ owns c.tc (st5_5 t) fullShare (out5 x0 x1 x2 x3 x4)) -∗ K ⟨⟩))
      ⊢ wp frame (wpE (defs₀ (F := F)) Variants.none c none) Set.univ (bodyAt5 t) K := by
  unfold bodyAt5; simp only [cc5__ln_resid_kernel_eq_skeleton]; unfold cc5__ln_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0; subst hf1; subst hf2; subst hf3; subst hf4
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5
  ipureintro
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => out5 (blk5 V c 0 t) (blk5 V c 1 t) (blk5 V c 2 t) (blk5 V c 3 t) (blk5 V c 4 t)
  Φ _ := Pipeline.ΦA spec5 c
  q _ := fullShare
  owed _ := 0

theorem dat5_A (c : Dev nD) (w : Fin cfg5.W) : (dat5 V c).A w = V c (Pipeline.arrRef spec5 w) := rfl

theorem dat5_after5 (c : Dev nD) (t : Fin cfg5.N) : (dat5 V c).after 5 t = out5 (blk5 V c 0 t) (blk5 V c 1 t) (blk5 V c 2 t) (blk5 V c 3 t) (blk5 V c 4 t) := by dsimp only [dat5]

theorem dat5_in (c : Dev nD) (t : Fin cfg5.N) :
    (∀ d, (dat5 V c).before 0 t d = blk5 V c 0 t) ∧ (dat5 V c).after 0 t = blk5 V c 0 t ∧
    (∀ d, (dat5 V c).before 1 t d = blk5 V c 1 t) ∧ (dat5 V c).after 1 t = blk5 V c 1 t ∧
    (∀ d, (dat5 V c).before 2 t d = blk5 V c 2 t) ∧ (dat5 V c).after 2 t = blk5 V c 2 t ∧
    (∀ d, (dat5 V c).before 3 t d = blk5 V c 3 t) ∧ (dat5 V c).after 3 t = blk5 V c 3 t ∧
    (∀ d, (dat5 V c).before 4 t d = blk5 V c 4 t) ∧ (dat5 V c).after 4 t = blk5 V c 4 t := by
  and_intros <;> first
    | exact fun d => ((dat5 V c).before_in_eq_fetched _ rfl (fun _ => rfl) (fun _ _ _ => rfl) (fun _ => rfl) t d).trans rfl
    | dsimp only [dat5]

theorem obligation5 (c : Dev nD) : BodyObligation (dat5 (F := F) V c) (defs₀ (F := F)) Variants.none () Set.univ := fun t => by
  rw [bigSep_W5, bigSep_W5]
  simp only [dat5_in, dat5_after5]
  show _ ⊢ wp _ _ _ (bodyAt5 t) fun _ => iprop((dat5 V c).Φ t.castSucc ∗ (dat5 V c).owesAt () t.castSucc ∗ _)
  iintro ⟨HΦ, Ho, ⟨%d0, H0⟩, ⟨%d1, H1⟩, ⟨%d2, H2⟩, ⟨%d3, H3⟩, ⟨%d4, H4⟩, ⟨%d5, H5⟩⟩
  iapply (run_body5 c t (blk5 V c 0 t) (blk5 V c 1 t) (blk5 V c 2 t) (blk5 V c 3 t) (blk5 V c 4 t) ((dat5 V c).before 5 t d5) _)
  iframe H0 H1 H2 H3 H4 H5
  iintro ⟨H0, H1, H2, H3, H4, H5⟩
  iframe

end Cert.KernelIdeal.Hand

end
-- ==== Proof.KI.Reg6Data.lean ====
import proofs.«402883_j70007966925398_1_alg».proof.Proof.Gen.KernelIdeal.Launch
import proofs.«402883_j70007966925398_1_alg».proof.Proof.Gen.KernelIdeal.Skeleton
import proofs.«402883_j70007966925398_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := if h : n < cfg6.N then ⟨n, h⟩ else t6_9

theorem pt6_val (t : Fin cfg6.N) : pt6 t.val = t := dif_pos t.isLt

def acc6 (c : Dev nD) : ℕ → Vec F S1x64 .f32
  | 0 => k6_pay2 (k6_pay1 (F := F)) (blk6 V c 0 (pt6 0))
  | n + 1 => k6_pay2 (acc6 c n) (blk6 V c 0 (pt6 (n + 1)))

theorem acc6_first (c : Dev nD) (t : Fin cfg6.N) (h : t.val = 0) :
    acc6 V c t.val = k6_pay2 (k6_pay1 (F := F)) (blk6 V c 0 t) := by
  have ht : pt6 0 = t := (congrArg pt6 h).symm.trans (pt6_val t)
  rw [h]; show k6_pay2 (k6_pay1 (F := F)) (blk6 V c 0 (pt6 0)) = _; rw [ht]

theorem acc6_later (c : Dev nD) (t : Fin cfg6.N) (h : t.val ≠ 0) :
    acc6 V c t.val = k6_pay2 (acc6 V c (t.val - 1)) (blk6 V c 0 t) := by
  obtain ⟨n, hn⟩ := t
  cases n with
  | zero => exact absurd rfl h
  | succ n =>
    show k6_pay2 (acc6 V c n) (blk6 V c 0 (pt6 (n + 1))) = _
    rw [show pt6 (n + 1) = ⟨n + 1, hn⟩ from pt6_val ⟨n + 1, hn⟩]; rfl

abbrev sc6 : Memref sig .tc .vmem S1x64 .f32 := Memref.whole cc6_scratch0

abbrev rest6 (c : Dev nD) : sProp 𝕄 :=
  Pipeline.scopedRestBut (Ix := Unit) (Name := ℕ) (U := UR sig nD τ) (Lvl := ℕ) (Val := Elt F) spec6 c [cc6_scratch0]

def Phi6 (c : Dev nD) : ℕ → sProp 𝕄
  | 0 => iprop((∃ d, owns (c : Thread nD τ) sc6 fullShare d) ∗ rest6 (F := F) c ∗ ∃ r, prngReg c r)
  | n + 1 => iprop(owns (c : Thread nD τ) sc6 fullShare (acc6 V c n) ∗ rest6 (F := F) c ∗ ∃ r, prngReg c r)

theorem Phi6_zero (c : Dev nD) (n : ℕ) (h : n = 0) :
    Phi6 V c n = iprop((∃ d, owns (c : Thread nD τ) sc6 fullShare d) ∗ rest6 (F := F) c ∗ ∃ r, prngReg c r) := by
  subst h; rfl

theorem Phi6_succ (c : Dev nD) (n : ℕ) :
    Phi6 V c (n + 1) = iprop(owns (c : Thread nD τ) sc6 fullShare (acc6 V c n) ∗ rest6 (F := F) c ∗ ∃ r, prngReg c r) := rfl

theorem Phi6_pos (c : Dev nD) (n : ℕ) (h : n ≠ 0) :
    Phi6 V c n = iprop(owns (c : Thread nD τ) sc6 fullShare (acc6 V c (n - 1)) ∗ rest6 (F := F) c ∗ ∃ r, prngReg c r) := by
  cases n with
  | zero => exact absurd rfl h
  | succ n => rfl

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => k6_pay3 (acc6 V c t.val)
  Φ t := Phi6 V c t.val
  q _ := fullShare
  owed _ := 0

theorem dat6_A (c : Dev nD) (w : Fin cfg6.W) : (dat6 V c).A w = V c (Pipeline.arrRef spec6 w) := by
  dsimp only [dat6]

theorem dat6_after0 (c : Dev nD) (t : Fin cfg6.N) : (dat6 V c).after 0 t = blk6 V c 0 t := by dsimp only [dat6]
theorem dat6_after1 (c : Dev nD) (t : Fin cfg6.N) : (dat6 V c).after 1 t = k6_pay3 (acc6 V c t.val) := by dsimp only [dat6]

theorem dat6_after1_last (c : Dev nD) : (dat6 V c).after 1 t6_9 = k6_pay3 (acc6 V c 9) := by
  rw [dat6_after1]; rfl

theorem dat6_Phi (c : Dev nD) (t : Fin (cfg6.N + 1)) : (dat6 V c).Φ t = Phi6 V c t.val := by dsimp only [dat6]

theorem dat6_before0 (c : Dev nD) (t : Fin cfg6.N) (d) : (dat6 V c).before 0 t d = blk6 V c 0 t :=
  ((dat6 V c).before_in_eq_fetched 0 rfl (fun _ => rfl) (fun _ _ _ => rfl) (fun _ => rfl) t d).trans rfl

end Cert.KernelIdeal.Hand

end
-- ==== Proof.KI.Fold.lean ====
import proofs.«402883_j70007966925398_1_alg».proof.Proof.Gen.KernelIdeal.Regions
import proofs.«402883_j70007966925398_1_alg».proof.Proof.KI.Reg0
import proofs.«402883_j70007966925398_1_alg».proof.Proof.KI.Reg1
import proofs.«402883_j70007966925398_1_alg».proof.Proof.KI.Reg2
import proofs.«402883_j70007966925398_1_alg».proof.Proof.KI.Reg3
import proofs.«402883_j70007966925398_1_alg».proof.Proof.KI.Reg4
import proofs.«402883_j70007966925398_1_alg».proof.Proof.KI.Reg5
import proofs.«402883_j70007966925398_1_alg».proof.Proof.KI.Reg6Data

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf arrRef withArrays)

variable {F : FTy → Type} [FloatOps F] [Named F]

local notation "𝕄" => MT nD τ sig Unit (Elt F) ℕ (UR sig nD τ) ℕ

section
variable {cfg : Cfg sig Λ₀} {c : Dev nD} (dat : Dat τ (Elt F) Unit ℕ (UR sig nD τ) ℕ cfg c) (W : Valuation τ sig (Elt F))

theorem withArrays_not_mem (A) (b : Ref sig .tc) (hb : b ∉ Finset.univ.image (arrRef cfg.spec)) :
    withArrays cfg.spec c W A (Proc.devRef .tc b) = W (Proc.devRef .tc b) :=
  Pipeline.withArrays_of_ne _ c W A b fun w e => hb (Finset.mem_image.mpr ⟨w, Finset.mem_univ _, e⟩)

theorem withArrays_keep (hinj : Function.Injective (arrRef cfg.spec)) (hA : ∀ w, dat.A w = W (Proc.devRef .tc (arrRef cfg.spec w)))
    (o : Fin cfg.W) (ho : ∀ w, w ≠ o → (cfg.win w).isOut = false) (b : Ref sig .tc) (hb : b ≠ arrRef cfg.spec o) :
    withArrays cfg.spec c W (fun w => dat.arrAt w cfg.N) (Proc.devRef .tc b) = W (Proc.devRef .tc b) := by
  by_cases h : ∃ w, arrRef cfg.spec w = b
  · obtain ⟨w, rfl⟩ := h
    rw [Pipeline.withArrays_arr _ hinj, dat.arrAt_in w (ho w fun e => hb (e ▸ rfl)), hA]
  · exact Pipeline.withArrays_of_ne _ c W _ b fun w e => h ⟨w, e⟩
end

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  withArrays spec0 c (W1 m ρ c) fun w => (dat0 (V1 m ρ) c).arrAt w cfg0.N
theorem W2_arr (c : Dev nD) (w : Fin cfg0.W) :
    W2 m ρ c (Proc.devRef .tc (arrRef spec0 w)) = (dat0 (V1 m ρ) c).arrAt w cfg0.N :=
  Pipeline.withArrays_arr spec0 launch0.win.arr_inj c _ _ w
abbrev V2 : (c : Dev nD) → (b : Ref sig .tc) → Buf (Elt F) ((c : Thread nD τ).loc b) := fun c b => W2 m ρ c b
theorem arrsAt0 (c : Dev nD) (w : Fin cfg0.W) : (dat0 (V1 m ρ) c).arrAt w cfg0.N = V2 m ρ c (arrRef spec0 w) :=
  (W2_arr m ρ c w).symm
theorem others0 (c : Dev nD) : ∀ b, b ∉ Finset.univ.image (arrRef spec0) → V2 m ρ c b = V1 m ρ c b :=
  withArrays_not_mem (cfg := cfg0) _ _
theorem keep2 (c : Dev nD) (b : Ref sig .tc) (h : b ≠ main_v29) : W2 m ρ c (Proc.devRef .tc b) = W1 m ρ c (Proc.devRef .tc b) :=
  withArrays_keep (dat0 (V1 m ρ) c) _ launch0.win.arr_inj (dat0_A _ c) 2 (by decide) b h
abbrev W3 : Dev nD → Valuation τ sig (Elt F) := fun c => StableHlo.after hostOps1 (W2 m ρ c)
theorem keep3 (c : Dev nD) (b : Ref sig .tc) (h : b ∉ hostOps1_W) : W3 m ρ c (Proc.devRef .tc b) = W2 m ρ c (Proc.devRef .tc b) :=
  StableHlo.after_of_writes_sub hostOps1 _ hostOps1_writes h
abbrev W4 : Dev nD → Valuation τ sig (Elt F) := fun c => StableHlo.after hostOps1_1 (W3 m ρ c)
theorem keep4 (c : Dev nD) (b : Ref sig .tc) (h : b ∉ hostOps1_1_W) : W4 m ρ c (Proc.devRef .tc b) = W3 m ρ c (Proc.devRef .tc b) :=
  StableHlo.after_of_writes_sub hostOps1_1 _ hostOps1_1_writes h
abbrev V4 : (c : Dev nD) → (b : Ref sig .tc) → Buf (Elt F) ((c : Thread nD τ).loc b) := fun c b => W4 m ρ c b
def W5 (c : Dev nD) : Valuation τ sig (Elt F) :=
  withArrays spec1 c (W4 m ρ c) fun w => (dat1 (V4 m ρ) c).arrAt w cfg1.N
theorem W5_arr (c : Dev nD) (w : Fin cfg1.W) :
    W5 m ρ c (Proc.devRef .tc (arrRef spec1 w)) = (dat1 (V4 m ρ) c).arrAt w cfg1.N :=
  Pipeline.withArrays_arr spec1 launch1.win.arr_inj c _ _ w
abbrev V5 : (c : Dev nD) → (b : Ref sig .tc) → Buf (Elt F) ((c : Thread nD τ).loc b) := fun c b => W5 m ρ c b
theorem arrsAt1 (c : Dev nD) (w : Fin cfg1.W) : (dat1 (V4 m ρ) c).arrAt w cfg1.N = V5 m ρ c (arrRef spec1 w) :=
  (W5_arr m ρ c w).symm
theorem others1 (c : Dev nD) : ∀ b, b ∉ Finset.univ.image (arrRef spec1) → V5 m ρ c b = V4 m ρ c b :=
  withArrays_not_mem (cfg := cfg1) _ _
theorem keep5 (c : Dev nD) (b : Ref sig .tc) (h : b ≠ main_v40) : W5 m ρ c (Proc.devRef .tc b) = W4 m ρ c (Proc.devRef .tc b) :=
  withArrays_keep (dat1 (V4 m ρ) c) _ launch1.win.arr_inj (dat1_A _ c) 4 (by decide) b h
def W6 (c : Dev nD) : Valuation τ sig (Elt F) :=
  withArrays spec2 c (W5 m ρ c) fun w => (dat2 (V5 m ρ) c).arrAt w cfg2.N
theorem W6_arr (c : Dev nD) (w : Fin cfg2.W) :
    W6 m ρ c (Proc.devRef .tc (arrRef spec2 w)) = (dat2 (V5 m ρ) c).arrAt w cfg2.N :=
  Pipeline.withArrays_arr spec2 launch2.win.arr_inj c _ _ w
abbrev V6 : (c : Dev nD) → (b : Ref sig .tc) → Buf (Elt F) ((c : Thread nD τ).loc b) := fun c b => W6 m ρ c b
theorem arrsAt2 (c : Dev nD) (w : Fin cfg2.W) : (dat2 (V5 m ρ) c).arrAt w cfg2.N = V6 m ρ c (arrRef spec2 w) :=
  (W6_arr m ρ c w).symm
theorem others2 (c : Dev nD) : ∀ b, b ∉ Finset.univ.image (arrRef spec2) → V6 m ρ c b = V5 m ρ c b :=
  withArrays_not_mem (cfg := cfg2) _ _
theorem keep6 (c : Dev nD) (b : Ref sig .tc) (h : b ≠ main_v41) : W6 m ρ c (Proc.devRef .tc b) = W5 m ρ c (Proc.devRef .tc b) :=
  withArrays_keep (dat2 (V5 m ρ) c) _ launch2.win.arr_inj (dat2_A _ c) 2 (by decide) b h
abbrev W7 : Dev nD → Valuation τ sig (Elt F) := fun c => StableHlo.after hostOps3 (W6 m ρ c)
theorem keep7 (c : Dev nD) (b : Ref sig .tc) (h : b ∉ hostOps3_W) : W7 m ρ c (Proc.devRef .tc b) = W6 m ρ c (Proc.devRef .tc b) :=
  StableHlo.after_of_writes_sub hostOps3 _ hostOps3_writes h
abbrev W8 : Dev nD → Valuation τ sig (Elt F) := fun c => StableHlo.after hostOps3_1 (W7 m ρ c)
theorem keep8 (c : Dev nD) (b : Ref sig .tc) (h : b ∉ hostOps3_1_W) : W8 m ρ c (Proc.devRef .tc b) = W7 m ρ c (Proc.devRef .tc b) :=
  StableHlo.after_of_writes_sub hostOps3_1 _ hostOps3_1_writes h
abbrev V8 : (c : Dev nD) → (b : Ref sig .tc) → Buf (Elt F) ((c : Thread nD τ).loc b) := fun c b => W8 m ρ c b
def W9 (c : Dev nD) : Valuation τ sig (Elt F) :=
  withArrays spec3 c (W8 m ρ c) fun w => (dat3 (V8 m ρ) c).arrAt w cfg3.N
theorem W9_arr (c : Dev nD) (w : Fin cfg3.W) :
    W9 m ρ c (Proc.devRef .tc (arrRef spec3 w)) = (dat3 (V8 m ρ) c).arrAt w cfg3.N :=
  Pipeline.withArrays_arr spec3 launch3.win.arr_inj c _ _ w
abbrev V9 : (c : Dev nD) → (b : Ref sig .tc) → Buf (Elt F) ((c : Thread nD τ).loc b) := fun c b => W9 m ρ c b
theorem arrsAt3 (c : Dev nD) (w : Fin cfg3.W) : (dat3 (V8 m ρ) c).arrAt w cfg3.N = V9 m ρ c (arrRef spec3 w) :=
  (W9_arr m ρ c w).symm
theorem others3 (c : Dev nD) : ∀ b, b ∉ Finset.univ.image (arrRef spec3) → V9 m ρ c b = V8 m ρ c b :=
  withArrays_not_mem (cfg := cfg3) _ _
theorem keep9 (c : Dev nD) (b : Ref sig .tc) (h : b ≠ main_v52) : W9 m ρ c (Proc.devRef .tc b) = W8 m ρ c (Proc.devRef .tc b) :=
  withArrays_keep (dat3 (V8 m ρ) c) _ launch3.win.arr_inj (dat3_A _ c) 5 (by decide) b h
def W10 (c : Dev nD) : Valuation τ sig (Elt F) :=
  withArrays spec4 c (W9 m ρ c) fun w => (dat4 (V9 m ρ) c).arrAt w cfg4.N
theorem W10_arr (c : Dev nD) (w : Fin cfg4.W) :
    W10 m ρ c (Proc.devRef .tc (arrRef spec4 w)) = (dat4 (V9 m ρ) c).arrAt w cfg4.N :=
  Pipeline.withArrays_arr spec4 launch4.win.arr_inj c _ _ w
abbrev V10 : (c : Dev nD) → (b : Ref sig .tc) → Buf (Elt F) ((c : Thread nD τ).loc b) := fun c b => W10 m ρ c b
theorem arrsAt4 (c : Dev nD) (w : Fin cfg4.W) : (dat4 (V9 m ρ) c).arrAt w cfg4.N = V10 m ρ c (arrRef spec4 w) :=
  (W10_arr m ρ c w).symm
theorem others4 (c : Dev nD) : ∀ b, b ∉ Finset.univ.image (arrRef spec4) → V10 m ρ c b = V9 m ρ c b :=
  withArrays_not_mem (cfg := cfg4) _ _
theorem keep10 (c : Dev nD) (b : Ref sig .tc) (h : b ≠ main_v53) : W10 m ρ c (Proc.devRef .tc b) = W9 m ρ c (Proc.devRef .tc b) :=
  withArrays_keep (dat4 (V9 m ρ) c) _ launch4.win.arr_inj (dat4_A _ c) 2 (by decide) b h
abbrev W11 : Dev nD → Valuation τ sig (Elt F) := fun c => StableHlo.after hostOps5 (W10 m ρ c)
theorem keep11 (c : Dev nD) (b : Ref sig .tc) (h : b ∉ hostOps5_W) : W11 m ρ c (Proc.devRef .tc b) = W10 m ρ c (Proc.devRef .tc b) :=
  StableHlo.after_of_writes_sub hostOps5 _ hostOps5_writes h
abbrev W12 : Dev nD → Valuation τ sig (Elt F) := fun c => StableHlo.after hostOps5_1 (W11 m ρ c)
theorem keep12 (c : Dev nD) (b : Ref sig .tc) (h : b ∉ hostOps5_1_W) : W12 m ρ c (Proc.devRef .tc b) = W11 m ρ c (Proc.devRef .tc b) :=
  StableHlo.after_of_writes_sub hostOps5_1 _ hostOps5_1_writes h
abbrev V12 : (c : Dev nD) → (b : Ref sig .tc) → Buf (Elt F) ((c : Thread nD τ).loc b) := fun c b => W12 m ρ c b
def W13 (c : Dev nD) : Valuation τ sig (Elt F) :=
  withArrays spec5 c (W12 m ρ c) fun w => (dat5 (V12 m ρ) c).arrAt w cfg5.N
theorem W13_arr (c : Dev nD) (w : Fin cfg5.W) :
    W13 m ρ c (Proc.devRef .tc (arrRef spec5 w)) = (dat5 (V12 m ρ) c).arrAt w cfg5.N :=
  Pipeline.withArrays_arr spec5 launch5.win.arr_inj c _ _ w
abbrev V13 : (c : Dev nD) → (b : Ref sig .tc) → Buf (Elt F) ((c : Thread nD τ).loc b) := fun c b => W13 m ρ c b
theorem arrsAt5 (c : Dev nD) (w : Fin cfg5.W) : (dat5 (V12 m ρ) c).arrAt w cfg5.N = V13 m ρ c (arrRef spec5 w) :=
  (W13_arr m ρ c w).symm
theorem others5 (c : Dev nD) : ∀ b, b ∉ Finset.univ.image (arrRef spec5) → V13 m ρ c b = V12 m ρ c b :=
  withArrays_not_mem (cfg := cfg5) _ _
theorem keep13 (c : Dev nD) (b : Ref sig .tc) (h : b ≠ main_v64) : W13 m ρ c (Proc.devRef .tc b) = W12 m ρ c (Proc.devRef .tc b) :=
  withArrays_keep (dat5 (V12 m ρ) c) _ launch5.win.arr_inj (dat5_A _ c) 5 (by decide) b h
def W14 (c : Dev nD) : Valuation τ sig (Elt F) :=
  withArrays spec6 c (W13 m ρ c) fun w => (dat6 (V13 m ρ) c).arrAt w cfg6.N
theorem W14_arr (c : Dev nD) (w : Fin cfg6.W) :
    W14 m ρ c (Proc.devRef .tc (arrRef spec6 w)) = (dat6 (V13 m ρ) c).arrAt w cfg6.N :=
  Pipeline.withArrays_arr spec6 launch6.win.arr_inj c _ _ w
abbrev V14 : (c : Dev nD) → (b : Ref sig .tc) → Buf (Elt F) ((c : Thread nD τ).loc b) := fun c b => W14 m ρ c b
theorem arrsAt6 (c : Dev nD) (w : Fin cfg6.W) : (dat6 (V13 m ρ) c).arrAt w cfg6.N = V14 m ρ c (arrRef spec6 w) :=
  (W14_arr m ρ c w).symm
theorem others6 (c : Dev nD) : ∀ b, b ∉ Finset.univ.image (arrRef spec6) → V14 m ρ c b = V13 m ρ c b :=
  withArrays_not_mem (cfg := cfg6) _ _
theorem keep14 (c : Dev nD) (b : Ref sig .tc) (h : b ≠ main_v65) : W14 m ρ c (Proc.devRef .tc b) = W13 m ρ c (Proc.devRef .tc b) :=
  withArrays_keep (dat6 (V13 m ρ) c) _ launch6.win.arr_inj (dat6_A _ c) 1 (by decide) b h
abbrev W15 : Dev nD → Valuation τ sig (Elt F) := fun c => StableHlo.after hostOps7 (W14 m ρ c)
abbrev W16 : Dev nD → Valuation τ sig (Elt F) := fun c => StableHlo.after hostOps7_1 (W15 m ρ c)
abbrev W17 : Dev nD → Valuation τ sig (Elt F) := fun c => StableHlo.after hostOps7_2 (W16 m ρ c)

theorem from0_1 (c : Dev nD) (b : Ref sig .tc) (h : b ∉ hostOps0_W) :
    W1 m ρ c (Proc.devRef .tc b) = m ((c : Thread nD τ).loc b) :=
  StableHlo.after_of_writes_sub hostOps0 _ hostOps0_writes h
theorem from0_2 (c : Dev nD) (b : Ref sig .tc) (h : b ∉ hostOps0_W ∧ b ≠ main_v29) :
    W2 m ρ c (Proc.devRef .tc b) = m ((c : Thread nD τ).loc b) :=
  (keep2 m ρ c b h.2).trans (from0_1 m ρ c b h.1)
theorem from0_5 (c : Dev nD) (b : Ref sig .tc) (h : b ∉ hostOps0_W ∧ b ≠ main_v29 ∧ b ∉ hostOps1_W ∧ b ∉ hostOps1_1_W ∧ b ≠ main_v40) :
    W5 m ρ c (Proc.devRef .tc b) = m ((c : Thread nD τ).loc b) :=
  let ⟨h1, h2, h3, h4, h5⟩ := h
  (keep5 m ρ c b h5).trans <| (keep4 m ρ c b h4).trans <| (keep3 m ρ c b h3).trans <| from0_2 m ρ c b ⟨h1, h2⟩
theorem from0_6 (c : Dev nD) (b : Ref sig .tc) (h : b ∉ hostOps0_W ∧ b ≠ main_v29 ∧ b ∉ hostOps1_W ∧ b ∉ hostOps1_1_W ∧ b ≠ main_v40 ∧ b ≠ main_v41) :
    W6 m ρ c (Proc.devRef .tc b) = m ((c : Thread nD τ).loc b) :=
  let ⟨h1, h2, h3, h4, h5, h6⟩ := h
  (keep6 m ρ c b h6).trans <| from0_5 m ρ c b ⟨h1, h2, h3, h4, h5⟩
theorem from0_9 (c : Dev nD) (b : Ref sig .tc) (h : b ∉ hostOps0_W ∧ b ≠ main_v29 ∧ b ∉ hostOps1_W ∧ b ∉ hostOps1_1_W ∧ b ≠ main_v40 ∧ b ≠ main_v41 ∧ b ∉ hostOps3_W ∧ b ∉ hostOps3_1_W ∧ b ≠ main_v52) :
    W9 m ρ c (Proc.devRef .tc b) = m ((c : Thread nD τ).loc b) :=
  let ⟨h1, h2, h3, h4, h5, h6, h7, h8, h9⟩ := h
  (keep9 m ρ c b h9).trans <| (keep8 m ρ c b h8).trans <| (keep7 m ρ c b h7).trans <| from0_6 m ρ c b ⟨h1, h2, h3, h4, h5, h6⟩
theorem from0_10 (c : Dev nD) (b : Ref sig .tc) (h : b ∉ hostOps0_W ∧ b ≠ main_v29 ∧ b ∉ hostOps1_W ∧ b ∉ hostOps1_1_W ∧ b ≠ main_v40 ∧ b ≠ main_v41 ∧ b ∉ hostOps3_W ∧ b ∉ hostOps3_1_W ∧ b ≠ main_v52 ∧ b ≠ main_v53) :
    W10 m ρ c (Proc.devRef .tc b) = m ((c : Thread nD τ).loc b) :=
  let ⟨h1, h2, h3, h4, h5, h6, h7, h8, h9, h10⟩ := h
  (keep10 m ρ c b h10).trans <| from0_9 m ρ c b ⟨h1, h2, h3, h4, h5, h6, h7, h8, h9⟩
theorem from0_14 (c : Dev nD) (b : Ref sig .tc) (h : b ∉ hostOps0_W ∧ b ≠ main_v29 ∧ b ∉ hostOps1_W ∧ b ∉ hostOps1_1_W ∧ b ≠ main_v40 ∧ b ≠ main_v41 ∧ b ∉ hostOps3_W ∧ b ∉ hostOps3_1_W ∧ b ≠ main_v52 ∧ b ≠ main_v53 ∧ b ∉ hostOps5_W ∧ b ∉ hostOps5_1_W ∧ b ≠ main_v64 ∧ b ≠ main_v65) :
    W14 m ρ c (Proc.devRef .tc b) = m ((c : Thread nD τ).loc b) :=
  let ⟨h1, h2, h3, h4, h5, h6, h7, h8, h9, h10, h11, h12, h13, h14⟩ := h
  (keep14 m ρ c b h14).trans <| (keep13 m ρ c b h13).trans <| (keep12 m ρ c b h12).trans <| (keep11 m ρ c b h11).trans <|
    from0_10 m ρ c b ⟨h1, h2, h3, h4, h5, h6, h7, h8, h9, h10⟩
theorem W17_of_untouched (c : Dev nD) (b : Ref sig .tc)
    (h : b ∉ hostOps0_W ∧ b ∉ hostOps1_W ∧ b ∉ hostOps1_1_W ∧ b ∉ hostOps3_W ∧ b ∉ hostOps3_1_W ∧ b ∉ hostOps5_W ∧ b ∉ hostOps5_1_W ∧ b ∉ hostOps7_W ∧ b ∉ hostOps7_1_W ∧ b ∉ hostOps7_2_W ∧ b ≠ main_v29 ∧ b ≠ main_v40 ∧ b ≠ main_v41 ∧ b ≠ main_v52 ∧ b ≠ main_v53 ∧ b ≠ main_v64 ∧ b ≠ main_v65) :
    W17 m ρ c (Proc.devRef .tc b) = m ((c : Thread nD τ).loc b) :=
  let ⟨h1, h3, h4, h7, h8, h11, h12, h15, h16, h17, h2, h5, h6, h9, h10, h13, h14⟩ := h
  (StableHlo.after_of_writes_sub hostOps7_2 _ hostOps7_2_writes h17).trans <|
    (StableHlo.after_of_writes_sub hostOps7_1 _ hostOps7_1_writes h16).trans <|
    (StableHlo.after_of_writes_sub hostOps7 _ hostOps7_writes h15).trans <|
    from0_14 m ρ c b ⟨h1, h2, h3, h4, h5, h6, h7, h8, h9, h10, h11, h12, h13, h14⟩

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V5 m ρ) c
  | ⟨3, _⟩ => fun c => dat3 (V8 m ρ) c
  | ⟨4, _⟩ => fun c => dat4 (V9 m ρ) c
  | ⟨5, _⟩ => fun c => dat5 (V12 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W17 m ρ c) ∗ ∃ r, prngReg c r)

end Cert.KernelIdeal.Hand

end
-- ==== Proof.KI.Reg6.lean ====
import proofs.«402883_j70007966925398_1_alg».proof.Proof.KI.Reg6Data
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev whole6 : Rect S5000x64 := Rect.unit (s := S5000x64) ![0, 0] S5000x64.size inb_S5000x64_S5000x64_0_0

abbrev row6 : Rect S1x64 := Rect.unit (s := S1x64) ![0, 0] S1x64.size inb_S1x64_S1x64_0_0

theorem off_row6 : (![0, 0] : Fin S1x64.rank → ℕ) = fun _ => 0 := by funext a; fin_cases a <;> rfl
theorem off_whole6 : (![0, 0] : Fin S5000x64.rank → ℕ) = fun _ => 0 := by funext a; fin_cases a <;> rfl

theorem ld_row6 {κ : Kind} {sp : Space} (v : View sig κ sp S1x64 .f32) (f : v.ty.Contents (Elt F)) :
    v.readAt (Elt F) row6.toLoadRect f = v.read (Elt F) f := View.ld_unit_zero off_row6 _ _
theorem ld_whole6 {κ : Kind} {sp : Space} (v : View sig κ sp S5000x64 .f32) (f : v.ty.Contents (Elt F)) :
    v.readAt (Elt F) whole6.toLoadRect f = v.read (Elt F) f := View.ld_unit_zero off_whole6 _ _

theorem read_row_store {κ : Kind} {sp : Space} (v : View sig κ sp S1x64 .f32) (f : v.ty.Contents (Elt F)) (p : Vec F S1x64 .f32)
    (L : List (View.Piece (Elt F) S1x64 .f32)) : v.read (Elt F) (v.writes (Elt F) f (⟨row6, p⟩ :: L)) = p :=
  by
  have hcov : ∀ y : S1x64.Idx, ∃ pc ∈ ((⟨row6, p⟩ : View.Piece (Elt F) S1x64 .f32) :: L), y ∈ pc.1.set :=
    fun y => ⟨⟨row6, p⟩, List.mem_cons_self, View.mem_set_unit_zero off_row6 inb_S1x64_S1x64_0_0 y⟩
  rw [View.read_writes_eq_canon v f _ hcov]
  exact View.canon_cons_unit_zero off_row6 inb_S1x64_S1x64_0_0 p L

abbrev cond6_0 (i : grid6.Coords) : Prop :=
  (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

theorem hcond6_1 : ∀ t : Fin cfg6.N, k6_cond2 (grid6.coords t) = 1#1 ↔ t.val = 9 :=
  (by decide +kernel : ∀ t : Fin grid6.N, k6_cond2 (grid6.coords t) = 1#1 ↔ t.val = 9)

theorem idleAt6_1 : ∀ t : Fin cfg6.N, ¬k6_cond2 (grid6.coords t) = 1#1 → idle6 1 (grid6.coords t) = true := by decide +kernel
theorem noFlush6_1 : ∀ t : Fin cfg6.N, ¬k6_cond2 (grid6.coords t) = 1#1 → (cfg6.win 1).flush t = false := by decide +kernel
theorem liveAt6_1 : ∀ t : Fin cfg6.N, k6_cond2 (grid6.coords t) = 1#1 → idle6 1 (grid6.coords t) = false := by decide +kernel

section
variable (c : Dev nD) (E : Set ℕ) (i : grid6.Coords)
  (arg1 : Memref sig .tc .vmem S5000x64 .f32) (harg1 : arg1.IsWhole)
  (arg2 : Memref sig .tc .vmem S1x64 .f32) (harg2 : arg2.IsWhole) (arg3 : Memref sig .tc .vmem S1x64 .f32) (harg3 : arg3.IsWhole)
  (x0 : Vec F S5000x64 .f32)

theorem run6_AB (hc1 : ¬k6_cond2 i = 1#1) (xi a a0 : Vec F S1x64 .f32) (ha : a0 = if cond6_0 i then k6_pay1 (F := F) else a)
    (K : PUnit → sProp 𝕄) :
    iprop(owns (c : Thread nD τ) arg1 fullShare x0 ∗ owns (c : Thread nD τ) arg2 fullShare xi ∗ owns (c : Thread nD τ) arg3 fullShare a
        ∗ (iprop(owns (c : Thread nD τ) arg1 fullShare x0 ∗ owns (c : Thread nD τ) arg2 fullShare xi
            ∗ owns (c : Thread nD τ) arg3 fullShare (k6_pay2 a0 x0)) -∗ K ⟨⟩))
      ⊢ wp frame (wpE (defs₀ (F := F)) Variants.none c none) E (cc6__mean_pool_kernel i arg1 harg1 arg2 harg2 arg3 harg3) K := by
  simp only [cc6__mean_pool_kernel_eq_skeleton]; unfold cc6__mean_pool_kernel_skel
  unfold owns
  iintro ⟨⟨%f0, %hf0, H0⟩, ⟨%f1, %hf1, H1⟩, ⟨%f2, %hf2, H2⟩, Hk⟩
  subst hf0; subst hf1; subst hf2; subst ha
  by_cases hc0 : cond6_0 i
  all_goals
    sl_exec (disch := first | exact hc0 | exact hc1)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    refine (read_row_store _ _ _ _).trans ?_
  · rw [if_pos hc0]; sl_unfold_run_names; rw [View.readCov_cons_toLoadRect, ld_whole6]
  · rw [if_neg hc0, ld_row6, ld_whole6]

theorem run6_C (hc0 : ¬cond6_0 i) (hc1 : k6_cond2 i = 1#1) (a : Vec F S1x64 .f32) (K : PUnit → sProp 𝕄) :
    iprop(owns (c : Thread nD τ) arg1 fullShare x0 ∗ (∃ d, owns (c : Thread nD τ) arg2 fullShare d) ∗ owns (c : Thread nD τ) arg3 fullShare a
        ∗ (iprop(owns (c : Thread nD τ) arg1 fullShare x0 ∗ owns (c : Thread nD τ) arg2 fullShare (k6_pay3 (k6_pay2 a x0))
            ∗ owns (c : Thread nD τ) arg3 fullShare (k6_pay2 a x0)) -∗ K ⟨⟩))
      ⊢ wp frame (wpE (defs₀ (F := F)) Variants.none c none) E (cc6__mean_pool_kernel i arg1 harg1 arg2 harg2 arg3 harg3) K := by
  simp only [cc6__mean_pool_kernel_eq_skeleton]; unfold cc6__mean_pool_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  isplitl [H1]
  · iexists _; isplitr
    swap; · iexact H1
    ipureintro
    refine (read_row_store _ _ _ _).trans ?_
    sl_unfold_run_names
    rw [View.readCov_cons_toLoadRect]
    rw [ld_row6, ld_whole6]
  iexists _; isplitr
  swap; · iexact H2
  ipureintro
  sl_unfold_run_names
  refine (read_row_store _ _ _ _).trans ?_
  rw [ld_row6, ld_whole6]
end

theorem obligation6 (c : Dev nD) : BodyObligation (dat6 (F := F) V c) (defs₀ (F := F)) Variants.none () Set.univ := fun t => by
  rw [bigSep_W6, bigSep_W6]
  change _ ⊢ wp frame _ _ (bodyAt6 t) _
  unfold bodyAt6
  simp only [dat6_before0]
  rw [show (dat6 V c).owesAt () t.succ = (dat6 V c).owesAt () t.castSucc from rfl,
    dat6_Phi, dat6_Phi, Fin.coe_castSucc, Fin.val_succ, Phi6_succ, dat6_after0]
  by_cases h9 : t.val = 9
  ·
    have hc1 : k6_cond2 (grid6.coords t) = 1#1 := (hcond6_1 t).mpr h9
    have h0 : t.val ≠ 0 := by omega
    have hc0 : ¬cond6_0 (grid6.coords t) := fun h => h0 ((hcond6_0 t).mp h)
    simp only [liveAt6_1 t hc1]
    rw [dat6_after1, Phi6_pos V c _ h0, acc6_later V c t h0]
    iintro ⟨⟨HS, HR, Hg⟩, Ho, ⟨%d0, H0⟩, ⟨%d1, H1⟩⟩
    iapply (run6_C c Set.univ _ _ _ _ _ _ _ (blk6 V c 0 t) hc0 hc1 (acc6 V c (t.val - 1)) _)
    iframe H0 HS
    isplitl [H1]; · iexists _; iexact H1
    iintro ⟨H0, H1, HS⟩
    iframe
  · have hc1 : ¬k6_cond2 (grid6.coords t) = 1#1 := fun h => h9 ((hcond6_1 t).mp h)
    simp only [idleAt6_1 t hc1, noFlush6_1 t hc1]
    by_cases h0 : t.val = 0
    ·
      have hc0 : cond6_0 (grid6.coords t) := (hcond6_0 t).mpr h0
      rw [Phi6_zero V c _ h0, acc6_first V c t h0]
      iintro ⟨⟨⟨%a, HS⟩, HR, Hg⟩, Ho, ⟨%d0, H0⟩, ⟨%d1, H1⟩⟩
      iapply (run6_AB c Set.univ _ _ _ _ _ _ _ (blk6 V c 0 t) hc1 ((dat6 V c).before 1 t d1) a _ (if_pos hc0).symm _)
      iframe H0 H1 HS
      iintro ⟨H0, H1, HS⟩
      iframe HS HR Hg Ho H0
      iexists d1; iexact H1
    ·
      have hc0 : ¬cond6_0 (grid6.coords t) := fun h => h0 ((hcond6_0 t).mp h)
      rw [Phi6_pos V c _ h0, acc6_later V c t h0]
      iintro ⟨⟨HS, HR, Hg⟩, Ho, ⟨%d0, H0⟩, ⟨%d1, H1⟩⟩
      iapply (run6_AB c Set.univ _ _ _ _ _ _ _ (blk6 V c 0 t) hc1 ((dat6 V c).before 1 t d1) (acc6 V c (t.val - 1)) _ (if_neg hc0).symm _)
      iframe H0 H1 HS
      iintro ⟨H0, H1, HS⟩
      iframe HS HR Hg Ho H0
      iexists d1; iexact H1

theorem enter6 (c : Dev nD) : iprop((∃ r, prngReg c r) ∗ Pipeline.scopedRest (Ix := Unit) (Name := ℕ) (U := UR sig nD τ) (Lvl := ℕ) (Val := Elt F) spec6 c) ⊢ (dat6 V c).Φ 0 := by
  rw [dat6_Phi, show (0 : Fin (cfg6.N + 1)).val = 0 from rfl, Phi6_zero V c 0 rfl, scopedRest6_split]
  iintro ⟨Hg, ⟨%f, Hs⟩, HR⟩
  iframe HR Hg
  iexists f; rw [owns_whole]; iexact Hs

theorem leave6 (c : Dev nD) : (dat6 V c).Φ (Fin.last cfg6.N) ⊢ iprop((∃ r, prngReg c r) ∗ Pipeline.scopedRest (Ix := Unit) (Name := ℕ) (U := UR sig nD τ) (Lvl := ℕ) (Val := Elt F) spec6 c) := by
  rw [dat6_Phi, Fin.val_last, show cfg6.N = 9 + 1 from N_6, Phi6_succ, scopedRest6_split, owns_whole]
  iintro ⟨Hs, HR, Hg⟩
  iframe Hg HR
  iexists _; iexact Hs

end Cert.KernelIdeal.Hand

end
-- ==== Proof.KI.Segs.lean ====
import proofs.«402883_j70007966925398_1_alg».proof.Proof.KI.Fold
import proofs.«402883_j70007966925398_1_alg».proof.Proof.KI.Reg6

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)

variable {F : FTy → Type} [FloatOps F] [Named F]

variable (m : (ℓ : Loc nD τ sig) → Buf (Elt F) ℓ) (ρ : Dev nD → PrngReg)

variable {p : Fin 7} (l : Pipeline.LaunchFacts (nD := nD) (τ := τ) cfgs p) (Wa Wb : Dev nD → Valuation τ sig (Elt F))

-- A region as an item from the contents `Wa` to `Wb`, which hold its arrays at their first and last values and agree elsewhere.
def regOf
    (hb : ∀ c, BodyObligation (pdats m ρ p c) (defs₀ (F := F)) Variants.none () Set.univ)
    (hN : ∀ c w, (pdats m ρ p c).arrAt w (cfgs p).N = Wb c (Pipeline.arrRef (cfgs p).spec w))
    (hoth : ∀ c (b : Ref sig .tc), b ∉ Finset.univ.image (Pipeline.arrRef (cfgs p).spec) → Wb c b = Wa c b)
    (hA : ∀ c w, (pdats m ρ p c).A w = Wa c (Pipeline.arrRef (cfgs p).spec w) := by exact fun _ _ => rfl)
    (hq : ∀ c w, (pdats m ρ p c).q w = fullShare := by exact fun _ _ => rfl)
    (how : ∀ c t, (pdats m ρ p c).owed t = 0 := by exact fun _ _ => rfl)
    (hrec : ∀ c x, x ∈ (pdats m ρ p c).recorded 0 := by exact fun _ _ => trivial)
    (hent : ∀ c, iprop((∃ r, prngReg c r) ∗ Pipeline.scopedRest (cfgs p).spec c) ⊢ (pdats m ρ p c).Φ 0 := by exact fun _ => sep_comm)
    (hlv : ∀ c, (pdats m ρ p c).Φ (Fin.last (cfgs p).N) ⊢ iprop((∃ r, prngReg c r) ∗ Pipeline.scopedRest (cfgs p).spec c) := by exact fun _ => sep_comm) :
    Pipeline.RegionSeg (pcfgs (F := F)) adm (pdats m ρ) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (cfgs p).spec c fun b => Wa c b
  hentry c := by
    rw [Pipeline.ownSems0_none]
    have hsplit := Pipeline.arrays_of_unscopedBufs (p := p) (pcfgs (F := F)) adm (pdats m ρ) l.win l.arr_whole c
      ((pdats m ρ p c).share_full (hq c)) (fun b => Wa c b) (hA c)
    rw [Pipeline.unscopedBufs_held] at hsplit
    iintro ⟨⟨Hub, Hp, %W, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [how]
    iexists W; iframe HO; ipureintro; exact fun _ _ => Or.inl (hrec c _)
  hin c := by
    iintro ⟨Hp, -, Hr⟩
    iapply hent c
    isplitl [Hp] <;> iassumption
  hout c := by rw [Pipeline.ownSems0_none]; exact (hlv c).trans (sep_mono_r emp_sep_intro)
  hexit c := by
    have hjoin := Pipeline.unscopedBufs_of_arrays (p := p) (pcfgs (F := F)) adm
      l.win l.arr_whole c (pdats m ρ) ((pdats m ρ p c).share_full (hq c))
      (fun b => Wa c b) (fun b => Wb c b) ((pdats m ρ p c).arrAt · (cfgs p).N) (hN c) (hoth c)
    rw [Pipeline.unscopedBufs_held] at hjoin
    unfold Pipeline.Dat.owesAt Pipeline.owesWithin; rw [how]
    iintro ⟨Ha, ⟨%W, -, HO⟩, HY, Hrest⟩
    imodintro
    isplitl [Ha Hrest]
    · iapply hjoin; iframe
    isplitl [HY]; · iexact HY
    iexists W; iexact HO

def reg0 := regOf m ρ launch0 (W1 m ρ) (W2 m ρ) (obligation0 (V1 m ρ)) (arrsAt0 m ρ) (others0 m ρ)

def reg1 := regOf m ρ launch1 (W4 m ρ) (W5 m ρ) (obligation1 (V4 m ρ)) (arrsAt1 m ρ) (others1 m ρ)

def reg2 := regOf m ρ launch2 (W5 m ρ) (W6 m ρ) (obligation2 (V5 m ρ)) (arrsAt2 m ρ) (others2 m ρ)

def reg3 := regOf m ρ launch3 (W8 m ρ) (W9 m ρ) (obligation3 (V8 m ρ)) (arrsAt3 m ρ) (others3 m ρ)

def reg4 := regOf m ρ launch4 (W9 m ρ) (W10 m ρ) (obligation4 (V9 m ρ)) (arrsAt4 m ρ) (others4 m ρ)

def reg5 := regOf m ρ launch5 (W12 m ρ) (W13 m ρ) (obligation5 (V12 m ρ)) (arrsAt5 m ρ) (others5 m ρ)

def reg6 := regOf m ρ launch6 (W13 m ρ) (W14 m ρ) (obligation6 (V13 m ρ)) (arrsAt6 m ρ) (others6 m ρ)
    (hent := enter6 (V13 m ρ)) (hlv := leave6 (V13 m ρ))

end Cert.KernelIdeal.Hand

end
-- ==== Proof.KI.Run.lean ====
import proofs.«402883_j70007966925398_1_alg».proof.Proof.KI.Segs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .region (reg2 m ρ),
    .host (hseg hostOps3 hostOps3_sub hostOps3_fresh (W6 m ρ)),
    .host (hseg hostOps3_1 hostOps3_1_sub hostOps3_1_fresh (W7 m ρ)),
    .region (reg3 m ρ),
    .region (reg4 m ρ),
    .host (hseg hostOps5 hostOps5_sub hostOps5_fresh (W10 m ρ)),
    .host (hseg hostOps5_1 hostOps5_1_sub hostOps5_1_fresh (W11 m ρ)),
    .region (reg5 m ρ),
    .region (reg6 m ρ),
    .host (hseg hostOps7 hostOps7_sub hostOps7_fresh (W14 m ρ)),
    .host (hseg hostOps7_1 hostOps7_1_sub hostOps7_1_fresh (W15 m ρ)),
    .host (hseg hostOps7_2 hostOps7_2_sub hostOps7_2_fresh (W16 m ρ)) ]

theorem main_run (c : Dev nD) : main (F := F) c = Pipeline.Seg.run (segs m ρ) := (main_chain c).trans (by chain_rfl)

theorem run : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := by repeat (refine ⟨fun _ => .rfl, ?_⟩)
               exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun _ h => h)

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17]

-- No item writes an argument array, so the last contents of each are the first.
theorem run_result : θ_run defs (onTc (τ := τ) (main (F := F))) ⟨m, fun _ => 0, ρ⟩ (fun r => ∀ c : Dev nD,
      r.2.mem ((c.tc : Thread nD τ).loc main_v72) = W17 m ρ c (Proc.devRef .tc main_v72) ∧ mainArgs.Forall fun b => r.2.mem ((c.tc : Thread nD τ).loc b) = m ((c.tc : Thread nD τ).loc b)) :=
  (θ_run defs _ _).mono (fun r h c => ⟨h c _ (mem_uc main_v72 (by decide)), List.forall_iff_forall_mem.mpr fun b hb =>
    (h c _ (mem_uc b (by decide +revert))).trans (W17_of_untouched m ρ c b (by decide +revert))⟩) (run m ρ)

theorem frame : θ_run defs (onTc (τ := τ) (main (F := F))) ⟨m, fun _ => 0, ρ⟩ (fun r => ∀ c : Dev nD, mainArgs.Forall fun b => r.2.mem ((c.tc : Thread nD τ).loc b) = m ((c.tc : Thread nD τ).loc b)) :=
  (θ_run defs _ _).mono (fun _ h c => (h c).2) (run_result m ρ)

end Cert.KernelIdeal.Hand

end
-- ==== Proof.KI.HostK.lean ====
import proofs.«402883_j70007966925398_1_alg».proof.Proof.Gen.KernelIdeal.Launch

noncomputable section

namespace Cert.KernelIdeal.Hand

open Cert.KernelIdeal Cert.KernelIdeal.Gen
open Idealize.ShloMosaic Idealize.ShloMosaic.TcCoe

variable {F : FTy → Type} [FloatOps F] [Named F]

-- Row 0 of the edge list, then the self-loop ids 0, 1, …, 49999.
def srcOf (e : IVec S2x800000 32) : IVec S850000 32 :=
  concatenate S850000 0
    [⟨S800000, shapeCast S800000 (extractStridedSlice S1x800000 ![0, 0] e slices_S2x800000_S1x800000_0_0)
        shapeCasts_S1x800000_S800000⟩,
      ⟨S50000, iotaInDim S50000 32 0⟩]
    concatenates_S800000_S50000_S850000_d0

-- Row 1 of the edge list, then the self-loop ids 0, 1, …, 49999.
def dstOf (e : IVec S2x800000 32) : IVec S850000 32 :=
  concatenate S850000 0
    [⟨S800000, shapeCast S800000 (extractStridedSlice S1x800000 ![1, 0] e slices_S2x800000_S1x800000_1_0)
        shapeCasts_S1x800000_S800000⟩,
      ⟨S50000, iotaInDim S50000 32 0⟩]
    concatenates_S800000_S50000_S850000_d0

-- The reciprocal square root of every node's in-degree (ones added up by target id), taken as at least one.
def invSqrtDeg (d : IVec S850000 32) : FVec F S50000 .f32 :=
  Host.rsqrt
    (maximumf
      (Host.scatterAdd scatter_S50000_S850000x1_S850000_n_0_0_1
        (broadcastInDim S50000 ![] bcast_S_S50000 (constant (F := F) S_ .f32 0x00000000#32))
        (broadcastInDim S850000x1 ![0] bcast_S850000_S850000x1_0 d)
        (broadcastInDim S850000 ![] bcast_S_S850000 (constant (F := F) S_ .f32 0x3F800000#32)))
      (broadcastInDim S50000 ![] bcast_S_S50000 (constant (F := F) S_ .f32 0x3F800000#32)))

-- Ids as a column of start indices, a negative id first moved up by the number of nodes.
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

-- The weight of an edge: the reciprocal square roots of the in-degrees of its two ends, multiplied.
def nrmOf (e : IVec S2x800000 32) : FVec F S850000 .f32 :=
  mulf
    (Host.gather gather_S50000_S850000x1_S850000_n_0_n_n_0_1_1 (invSqrtDeg (F := F) (dstOf e)) (wrapCol (srcOf e)))
    (Host.gather gather_S50000_S850000x1_S850000_n_0_n_n_0_1_1 (invSqrtDeg (F := F) (dstOf e)) (wrapCol (dstOf e)))

theorem host0_src (W : Valuation τ sig (Elt F)) :
    StableHlo.after hostOps0 W (Proc.devRef .tc main_v3) = srcOf (W (Proc.devRef .tc main_arg1)) := by
  after_results_simp
  rfl

theorem host0_dst (W : Valuation τ sig (Elt F)) :
    StableHlo.after hostOps0 W (Proc.devRef .tc main_v6) = dstOf (W (Proc.devRef .tc main_arg1)) := by
  after_results_simp
  rfl

theorem host0_nrm (W : Valuation τ sig (Elt F)) :
    StableHlo.after hostOps0 W (Proc.devRef .tc main_v28) = nrmOf (F := F) (W (Proc.devRef .tc main_arg1)) := by
  after_results_simp
  rfl

-- A dense layer, the rectifier, a dense layer.
def headOf (p : FVec F S1x64 .f32) (a14 : FVec F S64x64 .f32) (a15 : FVec F S64 .f32) (a16 : FVec F S64x128 .f32)
    (a17 : FVec F S128 .f32) : FVec F S1x128 .f32 :=
  addf
    (Host.dotGeneral dot_S1x64_S64x128_S1x128_1_0_0_1_n_n none
      (maximumf
        (addf (Host.dotGeneral dot_S1x64_S64x64_S1x64_1_0_0_1_n_n none p a14) (broadcastInDim S1x64 ![1] bcast_S64_S1x64_1 a15))
        (broadcastInDim S1x64 ![] bcast_S_S1x64 (constant (F := F) S_ .f32 0x00000000#32)))
      a16)
    (broadcastInDim S1x128 ![1] bcast_S128_S1x128_1 a17)

theorem host7_head (W : Valuation τ sig (Elt F)) :
    StableHlo.after hostOps7_2 (StableHlo.after hostOps7_1 (StableHlo.after hostOps7 W)) (Proc.devRef .tc main_v72)
      = headOf (W (Proc.devRef .tc main_v65)) (W (Proc.devRef .tc main_arg14)) (W (Proc.devRef .tc main_arg15))
          (W (Proc.devRef .tc main_arg16)) (W (Proc.devRef .tc main_arg17)) := by
  after_results
  rfl

end Cert.KernelIdeal.Hand

end
-- ==== Proof.PreRange.lean ====
import proofs.«402883_j70007966925398_1_alg».proof.Proof.KI.HostK
import proofs.«402883_j70007966925398_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

instance subsingleton_idx0 : Subsingleton (⟨0, ![]⟩ : Shape).Idx := ⟨fun _ _ => funext fun a => a.elim0⟩

def row0 (e : IVec S2x800000 32) : IVec S800000 32 :=
  shapeCast S800000 (extractStridedSlice S1x800000 ![0, 0] e slices_S2x800000_S1x800000_0_0) shapeCasts_S1x800000_S800000

theorem concat_iota_range (row : IVec S800000 32) (hrow : ∀ i, 0 ≤ (row i).toInt ∧ (row i).toInt < 50000)
    (p : S850000.Idx) :
    0 ≤ (concatenate S850000 0 [⟨S800000, row⟩, ⟨S50000, iotaInDim S50000 32 0⟩]
          concatenates_S800000_S50000_S850000_d0 p).toInt
      ∧ (concatenate S850000 0 [⟨S800000, row⟩, ⟨S50000, iotaInDim S50000 32 0⟩]
          concatenates_S800000_S50000_S850000_d0 p).toInt < 50000 := by
  have hp850 : (p 0).val < 850000 := (p 0).isLt
  by_cases hp : (p 0).val < 800000
  · rw [concatenate_pair_apply_left (0 : Fin 1) row (iotaInDim S50000 32 0) concatenates_S800000_S50000_S850000_d0 p rfl
      (ix1 ⟨(p 0).val, hp⟩) (fun b => by match b with | ⟨0, _⟩ => rfl)]
    exact hrow _
  · have hlt : (p 0).val - 800000 < 50000 := by omega
    rw [concatenate_pair_apply_right (0 : Fin 1) row (iotaInDim S50000 32 0) concatenates_S800000_S50000_S850000_d0 p rfl rfl
      (ix1 ⟨(p 0).val - 800000, hlt⟩) (fun b hb => absurd (Subsingleton.elim _ _) hb)
      (by show (p 0).val - 800000 + 800000 = (p 0).val; omega)]
    show 0 ≤ (BitVec.ofNat 32 ((p 0).val - 800000)).toInt ∧ (BitVec.ofNat 32 ((p 0).val - 800000)).toInt < 50000
    rw [StableHlo.Predicate.toInt_ofNat_small _ (by omega)]
    omega

theorem row0_range {F : FTy → Type} [FloatOps F] (a1 : IVec S2x800000 32) (g : IVec S_ 1)
    (h : Cert.Pre_finite_inputs.fn_part5 (F := F) a1 g (row0 a1) = fun _ => 1#1) :
    ∀ i : S800000.Idx, 0 ≤ (row0 a1 i).toInt ∧ (row0 a1 i).toInt < 50000 := by
  intro i
  have e := congrFun h ix0
  unfold Cert.Pre_finite_inputs.fn_part5 at e
  have e3 := Host.reduce_andi_all _ _ _ _ _ (IntOp.andi_eq_one.1 e).2 i
  obtain ⟨h0, h1⟩ := IntOp.andi_eq_one.1 e3
  exact ⟨IntOp.cmpi_sge.1 h0, IntOp.cmpi_slt.1 h1⟩

-- The precondition bounds row 0 of the edge list; the appended ids 0, …, 49999 are in range by themselves.
theorem src_in_range {F : FTy → Type} [FloatOps F]
    (a0 : FVec F S50000x128 .f32) (a1 : IVec S2x800000 32) (a2 : FVec F S128x64 .f32) (a3 : FVec F S64 .f32)
    (a4 : FVec F S64 .f32) (a5 : FVec F S64 .f32) (a6 : FVec F S64x64 .f32) (a7 : FVec F S64 .f32) (a8 : FVec F S64 .f32)
    (a9 : FVec F S64 .f32) (a10 : FVec F S64x64 .f32) (a11 : FVec F S64 .f32) (a12 : FVec F S64 .f32)
    (a13 : FVec F S64 .f32) (a14 : FVec F S64x64 .f32) (a15 : FVec F S64 .f32) (a16 : FVec F S64x128 .f32)
    (a17 : FVec F S128 .f32)
    (h : Cert.Pre_finite_inputs.fn (F := F) a0 a1 a2 a3 a4 a5 a6 a7 a8 a9 a10 a11 a12 a13 a14 a15 a16 a17 = fun _ => 1#1) :
    ∀ p : S850000.Idx, 0 ≤ (srcOf a1 p).toInt ∧ (srcOf a1 p).toInt < 50000 := by
  unfold Cert.Pre_finite_inputs.fn Cert.Pre_finite_inputs.fn_part1 Cert.Pre_finite_inputs.fn_part2
    Cert.Pre_finite_inputs.fn_part3 Cert.Pre_finite_inputs.fn_part4 at h
  intro p
  exact concat_iota_range (row0 a1) (row0_range (F := F) a1 _ h) p

end Cert.KernelIdeal.Hand

end
-- ==== Proof.RefOps.lean ====
import proofs.«402883_j70007966925398_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

structure Ok (W : List (Ref sig .tc)) (op : HloOp τ sig (Elt F)) : Prop where
  writes : op.writes ⊆ (W.map (Proc.devRef (τ := τ) .tc)).toFinset
  fresh : op.fresh = ∅
  sub : op.bufs ⊆ tcRefs τ sig

-- A reference outside the list of those a line writes keeps its contents through the line.
theorem keeps {l : List (HloOp τ sig (Elt F))} {W : List (Ref sig .tc)} (h : l.Forall (Ok W)) {r : Ref sig .tc} (hr : r ∉ W)
    (V : Valuation τ sig (Elt F)) : after l V (Proc.devRef .tc r) = V (Proc.devRef .tc r) :=
  after_of_writes_sub l V (h.imp fun _ o => o.writes) hr

theorem forget {l : List (HloOp τ sig (Elt F))} {W : List (Ref sig .tc)} (h : l.Forall (Ok W)) :
    l.Forall fun op => op.fresh = ∅ ∧ op.bufs ⊆ tcRefs τ sig :=
  h.imp fun _ o => ⟨o.fresh, o.sub⟩

section Builders
variable {W : List (Ref sig .tc)} {x a b c y : Ref sig .tc}

-- An operation whose one written reference is listed in `W`.
theorem Ok.of {op : HloOp τ sig (Elt F)} (hw : op.writes = {Proc.devRef .tc y}) (hy : y ∈ W) (hf : op.fresh = ∅)
    (hs : op.bufs ⊆ tcRefs τ sig) : Ok W op :=
  ⟨by rw [hw, Finset.singleton_subset_iff, List.mem_toFinset]; exact List.mem_map_of_mem hy, hf, hs⟩

theorem Ok.nullary {v hy} (h : y ∈ W) : Ok W (nullary (Val := Elt F) y v hy) :=
  .of (nullary_writes ..) h rfl (nullary_bufs_sub ..)
theorem Ok.unary {f hx hy} (h : y ∈ W) : Ok W (unary (Val := Elt F) x y f hx hy) :=
  .of (unary_writes ..) h rfl (unary_bufs_sub ..)
theorem Ok.binary {f ha hb hy} (h : y ∈ W) : Ok W (binary (Val := Elt F) a b y f ha hb hy) :=
  .of (binary_writes ..) h rfl (binary_bufs_sub ..)
theorem Ok.ternary {f hc ha hb hy} (h : y ∈ W) : Ok W (ternary (Val := Elt F) c a b y f hc ha hb hy) :=
  .of (ternary_writes ..) h rfl (ternary_bufs_sub ..)
theorem Ok.reshape {he hn hx hy} (h : y ∈ W) : Ok W (reshape (Val := Elt F) x y he hn hx hy) :=
  .of (reshape_writes ..) h rfl (reshape_bufs_sub ..)

end Builders

abbrev opsA : List (HloOp τ sig (Elt F)) :=
  [ nullary main_v0 (iotaInDim S50000 32 0),
    unary main_arg1 main_v1 (extractStridedSlice S1x800000 ![0, 0] · slices_S2x800000_S1x800000_0_0),
    reshape main_v1 main_v2 rfl shapeCasts_S1x800000_S800000,
    binary main_v2 main_v0 main_v3 (fun a b => concatenate S850000 0 [⟨S800000, a⟩, ⟨S50000, b⟩] concatenates_S800000_S50000_S850000_d0),
    unary main_arg1 main_v4 (extractStridedSlice S1x800000 ![1, 0] · slices_S2x800000_S1x800000_1_0),
    reshape main_v4 main_v5 rfl shapeCasts_S1x800000_S800000,
    binary main_v5 main_v0 main_v6 (fun a b => concatenate S850000 0 [⟨S800000, a⟩, ⟨S50000, b⟩] concatenates_S800000_S50000_S850000_d0),
    nullary main_cst (constant S_ .f32 0x3F800000#32),
    unary main_cst main_v7 (broadcastInDim S850000 ![] bcast_S_S850000),
    nullary main_cst_0 (constant S_ .f32 0x00000000#32),
    unary main_cst_0 main_v8 (broadcastInDim S50000 ![] bcast_S_S50000),
    unary main_v6 main_v9 (broadcastInDim S850000x1 ![0] bcast_S850000_S850000x1_0),
    ternary main_v8 main_v9 main_v7 main_v10 (Host.scatterAdd scatter_S50000_S850000x1_S850000_n_0_0_1),
    nullary main_cst_1 (constant S_ .f32 0x3F800000#32),
    unary main_cst_1 main_v11 (broadcastInDim S50000 ![] bcast_S_S50000),
    binary main_v10 main_v11 main_v12 maximumf,
    unary main_v12 main_v13 Host.rsqrt,
    nullary main_c (constantI S_ 32 0#32),
    unary main_c main_v14 (broadcastInDim S850000 ![] bcast_S_S850000),
    binary main_v3 main_v14 main_v15 (cmpi .slt),
    nullary main_c_2 (constantI S_ 32 50000#32),
    unary main_c_2 main_v16 (broadcastInDim S850000 ![] bcast_S_S850000),
    binary main_v3 main_v16 main_v17 addi,
    ternary main_v15 main_v17 main_v3 main_v18 select,
    unary main_v18 main_v19 (broadcastInDim S850000x1 ![0] bcast_S850000_S850000x1_0),
    binary main_v13 main_v19 main_v20 (Host.gather gather_S50000_S850000x1_S850000_n_0_n_n_0_1_1),
    nullary main_c_3 (constantI S_ 32 0#32),
    unary main_c_3 main_v21 (broadcastInDim S850000 ![] bcast_S_S850000),
    binary main_v6 main_v21 main_v22 (cmpi .slt),
    nullary main_c_4 (constantI S_ 32 50000#32),
    unary main_c_4 main_v23 (broadcastInDim S850000 ![] bcast_S_S850000),
    binary main_v6 main_v23 main_v24 addi,
    ternary main_v22 main_v24 main_v6 main_v25 select,
    unary main_v25 main_v26 (broadcastInDim S850000x1 ![0] bcast_S850000_S850000x1_0),
    binary main_v13 main_v26 main_v27 (Host.gather gather_S50000_S850000x1_S850000_n_0_n_n_0_1_1),
    binary main_v20 main_v27 main_v28 mulf ]

abbrev opsA_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]

theorem opsA_ok : (opsA (F := F)).Forall (Ok opsA_W) := by
  simp only [List.Forall]
  repeat' apply And.intro
  all_goals first | exact .nullary (by decide) | exact .unary (by decide) | exact .binary (by decide) | exact .ternary (by decide) | exact .reshape (by decide)

abbrev opsL0a : List (HloOp τ sig (Elt F)) :=
  [ binary main_arg0 main_arg2 main_v29 (Host.dotGeneral dot_S50000x128_S128x64_S50000x64_1_0_0_1_n_n none),
    nullary main_c_5 (constantI S_ 32 0#32),
    unary main_c_5 main_v30 (broadcastInDim S850000 ![] bcast_S_S850000),
    binary main_v3 main_v30 main_v31 (cmpi .slt),
    nullary main_c_6 (constantI S_ 32 50000#32),
    unary main_c_6 main_v32 (broadcastInDim S850000 ![] bcast_S_S850000),
    binary main_v3 main_v32 main_v33 addi,
    ternary main_v31 main_v33 main_v3 main_v34 select,
    unary main_v34 main_v35 (broadcastInDim S850000x1 ![0] bcast_S850000_S850000x1_0),
    binary main_v29 main_v35 main_v36 (Host.gather gather_S50000x64_S850000x1_S850000x64_1_0_n_n_0_1_164),
    unary main_v28 main_v37 (broadcastInDim S850000x1 ![0] bcast_S850000_S850000x1_0),
    unary main_v37 main_v38 (broadcastInDim S850000x64 ![0, 1] bcast_S850000x1_S850000x64_0_1),
    binary main_v36 main_v38 main_v39 mulf,
    nullary main_cst_7 (constant S_ .f32 0x00000000#32),
    unary main_cst_7 main_v40 (broadcastInDim S50000x64 ![] bcast_S_S50000x64),
    unary main_v6 main_v41 (broadcastInDim S850000x1 ![0] bcast_S850000_S850000x1_0),
    ternary main_v40 main_v41 main_v39 main_v42 (Host.scatterAdd scatter_S50000x64_S850000x1_S850000x64_1_0_0_1) ]

abbrev opsL0a_W : List (Ref sig .tc) := [main_v29, main_c_5, main_v30, main_v31, main_c_6, main_v32, main_v33, main_v34, main_v35, main_v36, main_v37, main_v38, main_v39, main_cst_7, main_v40, main_v41, main_v42]

theorem opsL0a_ok : (opsL0a (F := F)).Forall (Ok opsL0a_W) := by
  simp only [List.Forall]
  repeat' apply And.intro
  all_goals first | exact .nullary (by decide) | exact .unary (by decide) | exact .binary (by decide) | exact .ternary (by decide) | exact .reshape (by decide)

abbrev opsL0b : List (HloOp τ sig (Elt F)) :=
  [ unary main_arg3 main_v43 (broadcastInDim S1x64 ![1] bcast_S64_S1x64_1),
    unary main_v43 main_v44 (broadcastInDim S50000x64 ![0, 1] bcast_S1x64_S50000x64_0_1),
    binary main_v42 main_v44 main_v45 addf,
    nullary main_cst_8 (constant S_ .f32 0x00000000#32),
    binary main_v45 main_cst_8 main_v46 (fun x v => Host.reduceAdd x v reducesTo_S50000x64_S50000_d1 h_S_),
    unary main_v46 main_v47 (broadcastInDim S50000x1 ![0] bcast_S50000_S50000x1_0),
    nullary main_cst_9 (constant S_ .f32 0x42800000#32),
    unary main_cst_9 main_v48 (broadcastInDim S50000x1 ![] bcast_S_S50000x1),
    binary main_v47 main_v48 main_v49 Host.divf,
    unary main_v49 main_v50 (broadcastInDim S50000x64 ![0, 1] bcast_S50000x1_S50000x64_0_1),
    binary main_v45 main_v50 main_v51 subf,
    binary main_v51 main_v51 main_v52 mulf,
    nullary main_cst_10 (constant S_ .f32 0x00000000#32),
    binary main_v52 main_cst_10 main_v53 (fun x v => Host.reduceAdd x v reducesTo_S50000x64_S50000_d1 h_S_),
    unary main_v53 main_v54 (broadcastInDim S50000x1 ![0] bcast_S50000_S50000x1_0),
    nullary main_cst_11 (constant S_ .f32 0x42800000#32),
    unary main_cst_11 main_v55 (broadcastInDim S50000x1 ![] bcast_S_S50000x1),
    binary main_v54 main_v55 main_v56 Host.divf,
    unary main_v49 main_v57 (broadcastInDim S50000x64 ![0, 1] bcast_S50000x1_S50000x64_0_1),
    binary main_v45 main_v57 main_v58 subf,
    nullary main_cst_12 (constant S_ .f32 0x3727C5AC#32),
    unary main_cst_12 main_v59 (broadcastInDim S50000x1 ![] bcast_S_S50000x1),
    binary main_v56 main_v59 main_v60 addf,
    unary main_v60 main_v61 Host.rsqrt,
    unary main_v61 main_v62 (broadcastInDim S50000x64 ![0, 1] bcast_S50000x1_S50000x64_0_1),
    binary main_v58 main_v62 main_v63 mulf,
    unary main_arg4 main_v64 (broadcastInDim S1x64 ![1] bcast_S64_S1x64_1),
    unary main_v64 main_v65 (broadcastInDim S50000x64 ![0, 1] bcast_S1x64_S50000x64_0_1),
    binary main_v63 main_v65 main_v66 mulf,
    unary main_arg5 main_v67 (broadcastInDim S1x64 ![1] bcast_S64_S1x64_1),
    unary main_v67 main_v68 (broadcastInDim S50000x64 ![0, 1] bcast_S1x64_S50000x64_0_1),
    binary main_v66 main_v68 main_v69 addf,
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v69) (TRef.of (T := ⟨S50000x64, .f32⟩) main_call0_v0) (TRef.of (T := ⟨S50000x64, .f32⟩) main_v70) maximumf ]

abbrev opsL0b_W : List (Ref sig .tc) := [main_v43, main_v44, main_v45, main_cst_8, main_v46, main_v47, main_cst_9, main_v48, main_v49, main_v50, main_v51, main_v52, main_cst_10, main_v53, main_v54, main_cst_11, main_v55, main_v56, main_v57, main_v58, main_cst_12, main_v59, main_v60, main_v61, main_v62, main_v63, main_v64, main_v65, main_v66, main_v67, main_v68, main_v69, main_call0_cst, main_call0_v0, main_v70]

theorem opsL0b_ok : (opsL0b (F := F)).Forall (Ok opsL0b_W) := by
  simp only [List.Forall]
  repeat' apply And.intro
  all_goals first | exact .nullary (by decide) | exact .unary (by decide) | exact .binary (by decide) | exact .ternary (by decide) | exact .reshape (by decide)

abbrev opsL1a : List (HloOp τ sig (Elt F)) :=
  [ binary main_v70 main_arg6 main_v71 (Host.dotGeneral dot_S50000x64_S64x64_S50000x64_1_0_0_1_n_n none),
    nullary main_c_13 (constantI S_ 32 0#32),
    unary main_c_13 main_v72 (broadcastInDim S850000 ![] bcast_S_S850000),
    binary main_v3 main_v72 main_v73 (cmpi .slt),
    nullary main_c_14 (constantI S_ 32 50000#32),
    unary main_c_14 main_v74 (broadcastInDim S850000 ![] bcast_S_S850000),
    binary main_v3 main_v74 main_v75 addi,
    ternary main_v73 main_v75 main_v3 main_v76 select,
    unary main_v76 main_v77 (broadcastInDim S850000x1 ![0] bcast_S850000_S850000x1_0),
    binary main_v71 main_v77 main_v78 (Host.gather gather_S50000x64_S850000x1_S850000x64_1_0_n_n_0_1_164),
    unary main_v28 main_v79 (broadcastInDim S850000x1 ![0] bcast_S850000_S850000x1_0),
    unary main_v79 main_v80 (broadcastInDim S850000x64 ![0, 1] bcast_S850000x1_S850000x64_0_1),
    binary main_v78 main_v80 main_v81 mulf,
    nullary main_cst_15 (constant S_ .f32 0x00000000#32),
    unary main_cst_15 main_v82 (broadcastInDim S50000x64 ![] bcast_S_S50000x64),
    unary main_v6 main_v83 (broadcastInDim S850000x1 ![0] bcast_S850000_S850000x1_0),
    ternary main_v82 main_v83 main_v81 main_v84 (Host.scatterAdd scatter_S50000x64_S850000x1_S850000x64_1_0_0_1) ]

abbrev opsL1a_W : List (Ref sig .tc) := [main_v71, main_c_13, main_v72, main_v73, main_c_14, main_v74, main_v75, main_v76, main_v77, main_v78, main_v79, main_v80, main_v81, main_cst_15, main_v82, main_v83, main_v84]

theorem opsL1a_ok : (opsL1a (F := F)).Forall (Ok opsL1a_W) := by
  simp only [List.Forall]
  repeat' apply And.intro
  all_goals first | exact .nullary (by decide) | exact .unary (by decide) | exact .binary (by decide) | exact .ternary (by decide) | exact .reshape (by decide)

abbrev opsL1b : List (HloOp τ sig (Elt F)) :=
  [ unary main_arg7 main_v85 (broadcastInDim S1x64 ![1] bcast_S64_S1x64_1),
    unary main_v85 main_v86 (broadcastInDim S50000x64 ![0, 1] bcast_S1x64_S50000x64_0_1),
    binary main_v84 main_v86 main_v87 addf,
    nullary main_cst_16 (constant S_ .f32 0x00000000#32),
    binary main_v87 main_cst_16 main_v88 (fun x v => Host.reduceAdd x v reducesTo_S50000x64_S50000_d1 h_S_),
    unary main_v88 main_v89 (broadcastInDim S50000x1 ![0] bcast_S50000_S50000x1_0),
    nullary main_cst_17 (constant S_ .f32 0x42800000#32),
    unary main_cst_17 main_v90 (broadcastInDim S50000x1 ![] bcast_S_S50000x1),
    binary main_v89 main_v90 main_v91 Host.divf,
    unary main_v91 main_v92 (broadcastInDim S50000x64 ![0, 1] bcast_S50000x1_S50000x64_0_1),
    binary main_v87 main_v92 main_v93 subf,
    binary main_v93 main_v93 main_v94 mulf,
    nullary main_cst_18 (constant S_ .f32 0x00000000#32),
    binary main_v94 main_cst_18 main_v95 (fun x v => Host.reduceAdd x v reducesTo_S50000x64_S50000_d1 h_S_),
    unary main_v95 main_v96 (broadcastInDim S50000x1 ![0] bcast_S50000_S50000x1_0),
    nullary main_cst_19 (constant S_ .f32 0x42800000#32),
    unary main_cst_19 main_v97 (broadcastInDim S50000x1 ![] bcast_S_S50000x1),
    binary main_v96 main_v97 main_v98 Host.divf,
    unary main_v91 main_v99 (broadcastInDim S50000x64 ![0, 1] bcast_S50000x1_S50000x64_0_1),
    binary main_v87 main_v99 main_v100 subf,
    nullary main_cst_20 (constant S_ .f32 0x3727C5AC#32),
    unary main_cst_20 main_v101 (broadcastInDim S50000x1 ![] bcast_S_S50000x1),
    binary main_v98 main_v101 main_v102 addf,
    unary main_v102 main_v103 Host.rsqrt,
    unary main_v103 main_v104 (broadcastInDim S50000x64 ![0, 1] bcast_S50000x1_S50000x64_0_1),
    binary main_v100 main_v104 main_v105 mulf,
    unary main_arg8 main_v106 (broadcastInDim S1x64 ![1] bcast_S64_S1x64_1),
    unary main_v106 main_v107 (broadcastInDim S50000x64 ![0, 1] bcast_S1x64_S50000x64_0_1),
    binary main_v105 main_v107 main_v108 mulf,
    unary main_arg9 main_v109 (broadcastInDim S1x64 ![1] bcast_S64_S1x64_1),
    unary main_v109 main_v110 (broadcastInDim S50000x64 ![0, 1] bcast_S1x64_S50000x64_0_1),
    binary main_v108 main_v110 main_v111 addf,
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v111) (TRef.of (T := ⟨S50000x64, .f32⟩) main_call1_v0) (TRef.of (T := ⟨S50000x64, .f32⟩) main_v112) maximumf,
    binary main_v70 main_v112 main_v113 addf ]

abbrev opsL1b_W : List (Ref sig .tc) := [main_v85, main_v86, main_v87, main_cst_16, main_v88, main_v89, main_cst_17, main_v90, main_v91, main_v92, main_v93, main_v94, main_cst_18, main_v95, main_v96, main_cst_19, main_v97, main_v98, main_v99, main_v100, main_cst_20, main_v101, main_v102, main_v103, main_v104, main_v105, main_v106, main_v107, main_v108, main_v109, main_v110, main_v111, main_call1_cst, main_call1_v0, main_v112, main_v113]

theorem opsL1b_ok : (opsL1b (F := F)).Forall (Ok opsL1b_W) := by
  simp only [List.Forall]
  repeat' apply And.intro
  all_goals first | exact .nullary (by decide) | exact .unary (by decide) | exact .binary (by decide) | exact .ternary (by decide) | exact .reshape (by decide)

abbrev opsL2a : List (HloOp τ sig (Elt F)) :=
  [ binary main_v113 main_arg10 main_v114 (Host.dotGeneral dot_S50000x64_S64x64_S50000x64_1_0_0_1_n_n none),
    nullary main_c_21 (constantI S_ 32 0#32),
    unary main_c_21 main_v115 (broadcastInDim S850000 ![] bcast_S_S850000),
    binary main_v3 main_v115 main_v116 (cmpi .slt),
    nullary main_c_22 (constantI S_ 32 50000#32),
    unary main_c_22 main_v117 (broadcastInDim S850000 ![] bcast_S_S850000),
    binary main_v3 main_v117 main_v118 addi,
    ternary main_v116 main_v118 main_v3 main_v119 select,
    unary main_v119 main_v120 (broadcastInDim S850000x1 ![0] bcast_S850000_S850000x1_0),
    binary main_v114 main_v120 main_v121 (Host.gather gather_S50000x64_S850000x1_S850000x64_1_0_n_n_0_1_164),
    unary main_v28 main_v122 (broadcastInDim S850000x1 ![0] bcast_S850000_S850000x1_0),
    unary main_v122 main_v123 (broadcastInDim S850000x64 ![0, 1] bcast_S850000x1_S850000x64_0_1),
    binary main_v121 main_v123 main_v124 mulf,
    nullary main_cst_23 (constant S_ .f32 0x00000000#32),
    unary main_cst_23 main_v125 (broadcastInDim S50000x64 ![] bcast_S_S50000x64),
    unary main_v6 main_v126 (broadcastInDim S850000x1 ![0] bcast_S850000_S850000x1_0),
    ternary main_v125 main_v126 main_v124 main_v127 (Host.scatterAdd scatter_S50000x64_S850000x1_S850000x64_1_0_0_1) ]

abbrev opsL2a_W : List (Ref sig .tc) := [main_v114, main_c_21, main_v115, main_v116, main_c_22, main_v117, main_v118, main_v119, main_v120, main_v121, main_v122, main_v123, main_v124, main_cst_23, main_v125, main_v126, main_v127]

theorem opsL2a_ok : (opsL2a (F := F)).Forall (Ok opsL2a_W) := by
  simp only [List.Forall]
  repeat' apply And.intro
  all_goals first | exact .nullary (by decide) | exact .unary (by decide) | exact .binary (by decide) | exact .ternary (by decide) | exact .reshape (by decide)

abbrev opsL2b : List (HloOp τ sig (Elt F)) :=
  [ unary main_arg11 main_v128 (broadcastInDim S1x64 ![1] bcast_S64_S1x64_1),
    unary main_v128 main_v129 (broadcastInDim S50000x64 ![0, 1] bcast_S1x64_S50000x64_0_1),
    binary main_v127 main_v129 main_v130 addf,
    nullary main_cst_24 (constant S_ .f32 0x00000000#32),
    binary main_v130 main_cst_24 main_v131 (fun x v => Host.reduceAdd x v reducesTo_S50000x64_S50000_d1 h_S_),
    unary main_v131 main_v132 (broadcastInDim S50000x1 ![0] bcast_S50000_S50000x1_0),
    nullary main_cst_25 (constant S_ .f32 0x42800000#32),
    unary main_cst_25 main_v133 (broadcastInDim S50000x1 ![] bcast_S_S50000x1),
    binary main_v132 main_v133 main_v134 Host.divf,
    unary main_v134 main_v135 (broadcastInDim S50000x64 ![0, 1] bcast_S50000x1_S50000x64_0_1),
    binary main_v130 main_v135 main_v136 subf,
    binary main_v136 main_v136 main_v137 mulf,
    nullary main_cst_26 (constant S_ .f32 0x00000000#32),
    binary main_v137 main_cst_26 main_v138 (fun x v => Host.reduceAdd x v reducesTo_S50000x64_S50000_d1 h_S_),
    unary main_v138 main_v139 (broadcastInDim S50000x1 ![0] bcast_S50000_S50000x1_0),
    nullary main_cst_27 (constant S_ .f32 0x42800000#32),
    unary main_cst_27 main_v140 (broadcastInDim S50000x1 ![] bcast_S_S50000x1),
    binary main_v139 main_v140 main_v141 Host.divf,
    unary main_v134 main_v142 (broadcastInDim S50000x64 ![0, 1] bcast_S50000x1_S50000x64_0_1),
    binary main_v130 main_v142 main_v143 subf,
    nullary main_cst_28 (constant S_ .f32 0x3727C5AC#32),
    unary main_cst_28 main_v144 (broadcastInDim S50000x1 ![] bcast_S_S50000x1),
    binary main_v141 main_v144 main_v145 addf,
    unary main_v145 main_v146 Host.rsqrt,
    unary main_v146 main_v147 (broadcastInDim S50000x64 ![0, 1] bcast_S50000x1_S50000x64_0_1),
    binary main_v143 main_v147 main_v148 mulf,
    unary main_arg12 main_v149 (broadcastInDim S1x64 ![1] bcast_S64_S1x64_1),
    unary main_v149 main_v150 (broadcastInDim S50000x64 ![0, 1] bcast_S1x64_S50000x64_0_1),
    binary main_v148 main_v150 main_v151 mulf,
    unary main_arg13 main_v152 (broadcastInDim S1x64 ![1] bcast_S64_S1x64_1),
    unary main_v152 main_v153 (broadcastInDim S50000x64 ![0, 1] bcast_S1x64_S50000x64_0_1),
    binary main_v151 main_v153 main_v154 addf,
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v154) (TRef.of (T := ⟨S50000x64, .f32⟩) main_call2_v0) (TRef.of (T := ⟨S50000x64, .f32⟩) main_v155) maximumf,
    binary main_v113 main_v155 main_v156 addf ]

abbrev opsL2b_W : List (Ref sig .tc) := [main_v128, main_v129, main_v130, main_cst_24, main_v131, main_v132, main_cst_25, main_v133, main_v134, main_v135, main_v136, main_v137, main_cst_26, main_v138, main_v139, main_cst_27, main_v140, main_v141, main_v142, main_v143, main_cst_28, main_v144, main_v145, main_v146, main_v147, main_v148, main_v149, main_v150, main_v151, main_v152, main_v153, main_v154, main_call2_cst, main_call2_v0, main_v155, main_v156]

theorem opsL2b_ok : (opsL2b (F := F)).Forall (Ok opsL2b_W) := by
  simp only [List.Forall]
  repeat' apply And.intro
  all_goals first | exact .nullary (by decide) | exact .unary (by decide) | exact .binary (by decide) | exact .ternary (by decide) | exact .reshape (by decide)

abbrev opsPH : List (HloOp τ sig (Elt F)) :=
  [ nullary main_cst_29 (constant S_ .f32 0x00000000#32),
    binary main_v156 main_cst_29 main_v157 (fun x v => Host.reduceAdd x v reducesTo_S50000x64_S64_d0 h_S_),
    unary main_v157 main_v158 (broadcastInDim S1x64 ![1] bcast_S64_S1x64_1),
    nullary main_cst_30 (constant S_ .f32 0x47435000#32),
    unary main_cst_30 main_v159 (broadcastInDim S1x64 ![] bcast_S_S1x64),
    binary main_v158 main_v159 main_v160 Host.divf,
    binary main_v160 main_arg14 main_v161 (Host.dotGeneral dot_S1x64_S64x64_S1x64_1_0_0_1_n_n none),
    unary main_arg15 main_v162 (broadcastInDim S1x64 ![1] bcast_S64_S1x64_1),
    binary main_v161 main_v162 main_v163 addf,
    TRef.nullary (TRef.of (T := ⟨S_, .f32⟩) main_call3_cst) (constant S_ .f32 0x00000000#32),
    TRef.unary (TRef.of (T := ⟨S_, .f32⟩) main_call3_cst) (TRef.of (T := ⟨S1x64, .f32⟩) main_call3_v0) (broadcastInDim S1x64 ![] bcast_S_S1x64),
    TRef.binary (TRef.of (T := ⟨S1x64, .f32⟩) main_v163) (TRef.of (T := ⟨S1x64, .f32⟩) main_call3_v0) (TRef.of (T := ⟨S1x64, .f32⟩) main_v164) maximumf,
    binary main_v164 main_arg16 main_v165 (Host.dotGeneral dot_S1x64_S64x128_S1x128_1_0_0_1_n_n none),
    unary main_arg17 main_v166 (broadcastInDim S1x128 ![1] bcast_S128_S1x128_1),
    binary main_v165 main_v166 main_v167 addf ]

abbrev opsPH_W : List (Ref sig .tc) := [main_cst_29, main_v157, main_v158, main_cst_30, main_v159, main_v160, main_v161, main_v162, main_v163, main_call3_cst, main_call3_v0, main_v164, main_v165, main_v166, main_v167]

theorem opsPH_ok : (opsPH (F := F)).Forall (Ok opsPH_W) := by
  simp only [List.Forall]
  repeat' apply And.intro
  all_goals first | exact .nullary (by decide) | exact .unary (by decide) | exact .binary (by decide) | exact .ternary (by decide) | exact .reshape (by decide)

end Cert.ReferenceIdeal.Hand

end
-- ==== Proof.Spec.lean ====
import Idealize.ShloMosaic.PureOps.Ideal.Laws

noncomputable section

open Idealize.ShloMosaic

namespace Cert.GnnSpec

abbrev width : EReal := Ideal.ofBits .f32 0x42800000#32

abbrev guard : EReal := Ideal.ofBits .f32 0x3727C5AC#32

abbrev floor0 : EReal := Ideal.ofBits .f32 0x00000000#32

def prod {N K M : ℕ} (x : Fin N → Fin K → EReal) (w : Fin K → Fin M → EReal) (r : Fin N) (j : Fin M) : EReal :=
  ∑ k : Fin K, x r k * w k j

def rowMean (h : Fin 64 → EReal) : EReal := Ideal.div (∑ k : Fin 64, h k) width

def rowVar (h : Fin 64 → EReal) : EReal :=
  Ideal.div (∑ k : Fin 64, (h k - rowMean h) * (h k - rowMean h)) width

def normRelu (h g beta : Fin 64 → EReal) (j : Fin 64) : EReal :=
  max ((h j - rowMean h) * Ideal.rsqrt (rowVar h + guard) * g j + beta j) floor0

def layer {N : ℕ} (agg : Fin N → Fin 64 → EReal) (b g beta : Fin 64 → EReal) (r : Fin N) (j : Fin 64) : EReal :=
  normRelu (fun k => agg r k + b k) g beta j

def layerRes {N : ℕ} (agg : Fin N → Fin 64 → EReal) (b g beta : Fin 64 → EReal) (res : Fin N → Fin 64 → EReal)
    (r : Fin N) (j : Fin 64) : EReal :=
  res r j + layer agg b g beta r j

def colMean (h : Fin 50000 → Fin 64 → EReal) (j : Fin 64) : EReal :=
  (∑ r : Fin 50000, h r j) * ((1 / 50000 : ℝ) : EReal)

end Cert.GnnSpec

end
-- ==== Proof.SpecArr.lean ====
import proofs.«402883_j70007966925398_1_alg».proof.Proof.Spec
import Idealize.ShloMosaic.Lib.ValueIdx

noncomputable section

open Idealize.ShloMosaic Idealize.ShloMosaic.ValueIdx

namespace Cert.GnnSpec

def rows {a b : ℕ} (x : (⟨2, ![a, b]⟩ : Shape).Idx → EReal) (r : Fin a) (j : Fin b) : EReal := x (ix2 r j)

def vec {a : ℕ} (x : (⟨1, ![a]⟩ : Shape).Idx → EReal) (j : Fin a) : EReal := x (ix1 j)

def row0 {a : ℕ} (x : (⟨2, ![1, a]⟩ : Shape).Idx → EReal) (j : Fin a) : EReal := x (ix2 0 j)

def arr {a b : ℕ} (f : Fin a → Fin b → EReal) : (⟨2, ![a, b]⟩ : Shape).Idx → EReal :=
  fun i => f ⟨(i 0).val, idx2_lt0 i⟩ ⟨(i 1).val, idx2_lt1 i⟩

theorem arr_ix2 {a b : ℕ} (f : Fin a → Fin b → EReal) (r : Fin a) (j : Fin b) : arr f (ix2 r j) = f r j := rfl

theorem rows_arr {a b : ℕ} (f : Fin a → Fin b → EReal) : rows (arr f) = f := rfl

def prodArr {N K M : ℕ} (x : (⟨2, ![N, K]⟩ : Shape).Idx → EReal) (w : (⟨2, ![K, M]⟩ : Shape).Idx → EReal) :
    (⟨2, ![N, M]⟩ : Shape).Idx → EReal := arr (prod (rows x) (rows w))

def layerArr {N : ℕ} (agg : (⟨2, ![N, 64]⟩ : Shape).Idx → EReal) (b g beta : Fin 64 → EReal) :
    (⟨2, ![N, 64]⟩ : Shape).Idx → EReal := arr (layer (rows agg) b g beta)

def layerResArr {N : ℕ} (agg : (⟨2, ![N, 64]⟩ : Shape).Idx → EReal) (b g beta : Fin 64 → EReal)
    (res : (⟨2, ![N, 64]⟩ : Shape).Idx → EReal) : (⟨2, ![N, 64]⟩ : Shape).Idx → EReal :=
  arr (layerRes (rows agg) b g beta (rows res))

def colMeanArr (h : (⟨2, ![50000, 64]⟩ : Shape).Idx → EReal) : (⟨2, ![1, 64]⟩ : Shape).Idx → EReal :=
  arr (fun _ j => colMean (rows h) j)

end Cert.GnnSpec

end
-- ==== Proof.RefChain.lean ====
import proofs.«402883_j70007966925398_1_alg».proof.Proof.Gen.ReferenceIdeal
import proofs.«402883_j70007966925398_1_alg».proof.Proof.SpecArr
import Idealize.ShloMosaic.Lib.IdealHost
import Idealize.ShloMosaic.Lib.StackMember

noncomputable section

namespace Cert.ReferenceIdeal.Hand

open Cert.ReferenceIdeal Cert.ReferenceIdeal.Gen
open Idealize.ShloMosaic Idealize.ShloMosaic.ValueIdx

variable {F : FTy → Type} [FloatOps F]

def srcOfR (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

def dstOfR (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

def wrapIdsR (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

def dinvOfR (e : IVec S2x800000 32) : FVec F S50000 .f32 :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 (dstOfR e))
      (broadcastInDim S850000 ![] bcast_S_S850000 (constant S_ .f32 0x3F800000#32)))
    (broadcastInDim S50000 ![] bcast_S_S50000 (constant S_ .f32 0x3F800000#32)))

def nrmOfR (e : IVec S2x800000 32) : FVec F S850000 .f32 :=
  mulf
    (Host.gather gather_S50000_S850000x1_S850000_n_0_n_n_0_1_1 (dinvOfR (F := F) e)
      (broadcastInDim S850000x1 ![0] bcast_S850000_S850000x1_0 (wrapIdsR (srcOfR e))))
    (Host.gather gather_S50000_S850000x1_S850000_n_0_n_n_0_1_1 (dinvOfR (F := F) e)
      (broadcastInDim S850000x1 ![0] bcast_S850000_S850000x1_0 (wrapIdsR (dstOfR e))))

def aggOfR (hw : FVec F S50000x64 .f32) (src dst : IVec S850000 32) (nrm : FVec F S850000 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf
      (Host.gather gather_S50000x64_S850000x1_S850000x64_1_0_n_n_0_1_164 hw
        (broadcastInDim S850000x1 ![0] bcast_S850000_S850000x1_0 (wrapIdsR src)))
      (broadcastInDim S850000x64 ![0, 1] bcast_S850000x1_S850000x64_0_1
        (broadcastInDim S850000x1 ![0] bcast_S850000_S850000x1_0 nrm)))

def headOfR (p : FVec F S1x64 .f32) (a14 : FVec F S64x64 .f32) (a15 : FVec F S64 .f32) (a16 : FVec F S64x128 .f32)
    (a17 : FVec F S128 .f32) : FVec F S1x128 .f32 :=
  addf
    (Host.dotGeneral dot_S1x64_S64x128_S1x128_1_0_0_1_n_n none
      (maximumf
        (addf (Host.dotGeneral dot_S1x64_S64x64_S1x64_1_0_0_1_n_n none p a14)
          (broadcastInDim S1x64 ![1] bcast_S64_S1x64_1 a15))
        (broadcastInDim S1x64 ![] bcast_S_S1x64 (constant S_ .f32 0x00000000#32)))
      a16)
    (broadcastInDim S1x128 ![1] bcast_S128_S1x128_1 a17)

def refProd0 (x : FVec F S50000x128 .f32) (w : FVec F S128x64 .f32) : FVec F S50000x64 .f32 :=
  Host.dotGeneral dot_S50000x128_S128x64_S50000x64_1_0_0_1_n_n none x w

def refProd1 (x : FVec F S50000x64 .f32) (w : FVec F S64x64 .f32) : FVec F S50000x64 .f32 :=
  Host.dotGeneral dot_S50000x64_S64x64_S50000x64_1_0_0_1_n_n none x w

def refRowOf (v : FVec F S64 .f32) : FVec F S50000x64 .f32 :=
  broadcastInDim S50000x64 ![0, 1] bcast_S1x64_S50000x64_0_1 (broadcastInDim S1x64 ![1] bcast_S64_S1x64_1 v)

def refRowMean (h : FVec F S50000x64 .f32) : FVec F S50000x1 .f32 :=
  Host.divf
    (broadcastInDim S50000x1 ![0] bcast_S50000_S50000x1_0
      (Host.reduceAdd h (constant S_ .f32 0x00000000#32) reducesTo_S50000x64_S50000_d1 h_S_))
    (broadcastInDim S50000x1 ![] bcast_S_S50000x1 (constant S_ .f32 0x42800000#32))

def refCentre (h : FVec F S50000x64 .f32) : FVec F S50000x64 .f32 :=
  subf h (broadcastInDim S50000x64 ![0, 1] bcast_S50000x1_S50000x64_0_1 (refRowMean h))

def refScale (h : FVec F S50000x64 .f32) : FVec F S50000x1 .f32 :=
  Host.rsqrt (addf (refRowMean (mulf (refCentre h) (refCentre h)))
    (broadcastInDim S50000x1 ![] bcast_S_S50000x1 (constant S_ .f32 0x3727C5AC#32)))

def refNorm (h : FVec F S50000x64 .f32) (g beta : FVec F S64 .f32) : FVec F S50000x64 .f32 :=
  addf
    (mulf (mulf (refCentre h) (broadcastInDim S50000x64 ![0, 1] bcast_S50000x1_S50000x64_0_1 (refScale h))) (refRowOf g))
    (refRowOf beta)

def refLayer (agg : FVec F S50000x64 .f32) (b g beta : FVec F S64 .f32) : FVec F S50000x64 .f32 :=
  maximumf (refNorm (addf agg (refRowOf b)) g beta)
    (broadcastInDim S50000x64 ![] bcast_S_S50000x64 (constant S_ .f32 0x00000000#32))

def refLayerRes (agg : FVec F S50000x64 .f32) (b g beta : FVec F S64 .f32) (res : FVec F S50000x64 .f32) :
    FVec F S50000x64 .f32 :=
  addf res (refLayer agg b g beta)

def refPool (h : FVec F S50000x64 .f32) : FVec F S1x64 .f32 :=
  Host.divf
    (broadcastInDim S1x64 ![1] bcast_S64_S1x64_1
      (Host.reduceAdd h (constant S_ .f32 0x00000000#32) reducesTo_S50000x64_S64_d0 h_S_))
    (broadcastInDim S1x64 ![] bcast_S_S1x64 (constant S_ .f32 0x47435000#32))

section Layout
variable {α : Type}

theorem vec_row_apply (v : S64.Idx → α) (z : Fin 1) (j : Fin 64) :
    broadcastInDim S1x64 ![1] bcast_S64_S1x64_1 v (ix2 z j) = v (ix1 j) :=
  broadcastInDim_apply _ bcast_S64_S1x64_1 v (ix2 z j) (ix1 j) (fun a => match a with
    | ⟨0, _⟩ => rfl)

theorem vec_col_apply (v : S50000.Idx → α) (r : Fin 50000) (z : Fin 1) :
    broadcastInDim S50000x1 ![0] bcast_S50000_S50000x1_0 v (ix2 r z) = v (ix1 r) :=
  broadcastInDim_apply _ bcast_S50000_S50000x1_0 v (ix2 r z) (ix1 r) (fun a => match a with
    | ⟨0, _⟩ => rfl)

theorem col_arr_apply (x : S50000x1.Idx → α) (r : Fin 50000) (j : Fin 64) :
    broadcastInDim S50000x64 ![0, 1] bcast_S50000x1_S50000x64_0_1 x (ix2 r j) = x (ix2 r 0) :=
  broadcastInDim_apply _ bcast_S50000x1_S50000x64_0_1 x (ix2 r j) (ix2 r 0) (fun a => match a with
    | ⟨0, _⟩ => rfl
    | ⟨1, _⟩ => rfl)

end Layout

theorem refRowOf_apply (v : FVec F S64 .f32) (r : Fin 50000) (j : Fin 64) : refRowOf v (ix2 r j) = v (ix1 j) := by
  unfold refRowOf
  rw [broadcastInDim_oneRow_apply, vec_row_apply]

theorem rowSum_apply (h : FVec Ideal S50000x64 .f32) (r : Fin 50000) :
    Host.reduceAdd (F := Ideal) h (constant S_ .f32 0x00000000#32) reducesTo_S50000x64_S50000_d1 h_S_ (ix1 r)
      = ∑ k : Fin 64, h (ix2 r k) := by
  simp only [Host.reduceAdd, Ideal.hostReduceAdd_def]
  rw [Ideal.hostReduceAdd_single reducesTo_S50000x64_S50000_d1 (by decide), constant_apply, Ideal.ofBits_zero_f32, zero_add]
  refine Finset.sum_congr rfl fun k _ => ?_
  exact congrArg h (funext fun a => Fin.ext (by match a with | ⟨0, _⟩ => rfl | ⟨1, _⟩ => rfl))

theorem colSum_apply (h : FVec Ideal S50000x64 .f32) (j : Fin 64) :
    Host.reduceAdd (F := Ideal) h (constant S_ .f32 0x00000000#32) reducesTo_S50000x64_S64_d0 h_S_ (ix1 j)
      = ∑ r : Fin 50000, h (ix2 r j) := by
  simp only [Host.reduceAdd, Ideal.hostReduceAdd_def]
  rw [Ideal.hostReduceAdd_single reducesTo_S50000x64_S64_d0 (by decide), constant_apply, Ideal.ofBits_zero_f32, zero_add]
  refine Finset.sum_congr rfl fun k _ => ?_
  exact congrArg h (funext fun a => Fin.ext (by match a with | ⟨0, _⟩ => rfl | ⟨1, _⟩ => rfl))

theorem hostDivf_apply {s : Shape} {φ : FTy} (a b : FVec Ideal s φ) (i : s.Idx) : Host.divf a b i = Ideal.div (a i) (b i) := rfl

theorem hostRsqrt_apply {s : Shape} {φ : FTy} (a : FVec Ideal s φ) (i : s.Idx) : Host.rsqrt a i = Ideal.rsqrt (a i) := rfl

theorem refRowMean_apply (h : FVec Ideal S50000x64 .f32) (r : Fin 50000) :
    refRowMean h (ix2 r 0) = GnnSpec.rowMean (GnnSpec.rows h r) := by
  unfold refRowMean
  rw [hostDivf_apply, vec_col_apply, broadcastInDim_scalar_apply, rowSum_apply]
  rfl

theorem refCentre_apply (h : FVec Ideal S50000x64 .f32) (r : Fin 50000) (j : Fin 64) :
    refCentre h (ix2 r j) = GnnSpec.rows h r j - GnnSpec.rowMean (GnnSpec.rows h r) := by
  unfold refCentre
  rw [subf_apply, col_arr_apply, refRowMean_apply]
  rfl

theorem refVar_apply (h : FVec Ideal S50000x64 .f32) (r : Fin 50000) :
    refRowMean (mulf (refCentre h) (refCentre h)) (ix2 r 0) = GnnSpec.rowVar (GnnSpec.rows h r) := by
  rw [refRowMean_apply]
  show Ideal.div (∑ k : Fin 64, mulf (refCentre h) (refCentre h) (ix2 r k)) GnnSpec.width
    = Ideal.div (∑ k : Fin 64, (GnnSpec.rows h r k - GnnSpec.rowMean (GnnSpec.rows h r))
        * (GnnSpec.rows h r k - GnnSpec.rowMean (GnnSpec.rows h r))) GnnSpec.width
  refine congrArg (Ideal.div · GnnSpec.width) (Finset.sum_congr rfl fun k _ => ?_)
  rw [mulf_apply, refCentre_apply]

theorem refScale_apply (h : FVec Ideal S50000x64 .f32) (r : Fin 50000) :
    refScale h (ix2 r 0) = Ideal.rsqrt (GnnSpec.rowVar (GnnSpec.rows h r) + GnnSpec.guard) := by
  unfold refScale
  rw [hostRsqrt_apply, addf_apply, refVar_apply, broadcastInDim_scalar_apply]
  rfl

theorem refNorm_apply (h : FVec Ideal S50000x64 .f32) (g beta : FVec Ideal S64 .f32) (r : Fin 50000) (j : Fin 64) :
    refNorm h g beta (ix2 r j)
      = (GnnSpec.rows h r j - GnnSpec.rowMean (GnnSpec.rows h r))
          * Ideal.rsqrt (GnnSpec.rowVar (GnnSpec.rows h r) + GnnSpec.guard) * GnnSpec.vec g j + GnnSpec.vec beta j := by
  unfold refNorm
  rw [addf_apply, mulf_apply, mulf_apply, refCentre_apply, col_arr_apply, refScale_apply, refRowOf_apply, refRowOf_apply]
  rfl

theorem refLayer_eq (agg : FVec Ideal S50000x64 .f32) (b g beta : FVec Ideal S64 .f32) :
    refLayer agg b g beta = GnnSpec.layerArr agg (GnnSpec.vec b) (GnnSpec.vec g) (GnnSpec.vec beta) := by
  funext i
  obtain ⟨r, j, rfl⟩ : ∃ (r : Fin 50000) (j : Fin 64), i = ix2 r j := ⟨i 0, i 1, eq_ix2 i⟩
  have hrow : GnnSpec.rows (addf agg (refRowOf b)) r = fun k => GnnSpec.rows agg r k + GnnSpec.vec b k := by
    funext k
    show addf agg (refRowOf b) (ix2 r k) = agg (ix2 r k) + b (ix1 k)
    rw [addf_apply, refRowOf_apply]
  unfold refLayer
  rw [maximumf_apply, refNorm_apply, broadcastInDim_scalar_apply, hrow]
  rfl

theorem refLayerRes_eq (agg : FVec Ideal S50000x64 .f32) (b g beta : FVec Ideal S64 .f32) (res : FVec Ideal S50000x64 .f32) :
    refLayerRes agg b g beta res
      = GnnSpec.layerResArr agg (GnnSpec.vec b) (GnnSpec.vec g) (GnnSpec.vec beta) res := by
  funext i
  obtain ⟨r, j, rfl⟩ : ∃ (r : Fin 50000) (j : Fin 64), i = ix2 r j := ⟨i 0, i 1, eq_ix2 i⟩
  unfold refLayerRes
  rw [addf_apply, refLayer_eq]
  rfl

theorem plain_eq_prodArr {m k n : ℕ} (x : FVec Ideal ⟨2, ![m, k]⟩ .f32) (w : FVec Ideal ⟨2, ![k, n]⟩ .f32) :
    Host.dotGeneral (DotDims.plain m k n) none x w = GnnSpec.prodArr x w := by
  funext i
  obtain ⟨r, j, rfl⟩ : ∃ (r : Fin m) (j : Fin n), i = ix2 r j := ⟨i 0, i 1, eq_ix2 i⟩
  exact StackMember.dotGeneral_plain_apply none x w r j

theorem refProd0_eq (x : FVec Ideal S50000x128 .f32) (w : FVec Ideal S128x64 .f32) :
    refProd0 x w = GnnSpec.prodArr x w := plain_eq_prodArr x w

theorem refProd1_eq (x : FVec Ideal S50000x64 .f32) (w : FVec Ideal S64x64 .f32) :
    refProd1 x w = GnnSpec.prodArr x w := plain_eq_prodArr x w

theorem ofBits_50000 : Ideal.ofBits .f32 0x47435000#32 = ((50000 : ℝ) : EReal) := by
  simp [Ideal.ofBits, Ideal.ieee, -EReal.coe_mul]; norm_num

theorem refPool_eq (h : FVec Ideal S50000x64 .f32) : refPool h = GnnSpec.colMeanArr h := by
  funext i
  obtain ⟨z, j, rfl⟩ : ∃ (z : Fin 1) (j : Fin 64), i = ix2 z j := ⟨i 0, i 1, eq_ix2 i⟩
  unfold refPool
  rw [hostDivf_apply, vec_row_apply, broadcastInDim_scalar_apply, colSum_apply, constant_apply, ofBits_50000,
    Ideal.div_coe (by norm_num : (50000 : ℝ) ≠ 0)]
  rfl

def refH0 (x : FVec F S50000x128 .f32) (e : IVec S2x800000 32) (W : FVec F S128x64 .f32) (b g be : FVec F S64 .f32) :
    FVec F S50000x64 .f32 :=
  refLayer (aggOfR (refProd0 x W) (srcOfR e) (dstOfR e) (nrmOfR e)) b g be

def refStep (h : FVec F S50000x64 .f32) (e : IVec S2x800000 32) (W : FVec F S64x64 .f32) (b g be : FVec F S64 .f32) :
    FVec F S50000x64 .f32 :=
  refLayerRes (aggOfR (refProd1 h W) (srcOfR e) (dstOfR e) (nrmOfR e)) b g be h

def refMain (x : FVec F S50000x128 .f32) (e : IVec S2x800000 32)
    (W0 : FVec F S128x64 .f32) (b0 g0 be0 : FVec F S64 .f32)
    (W1 : FVec F S64x64 .f32) (b1 g1 be1 : FVec F S64 .f32)
    (W2 : FVec F S64x64 .f32) (b2 g2 be2 : FVec F S64 .f32)
    (a14 : FVec F S64x64 .f32) (a15 : FVec F S64 .f32) (a16 : FVec F S64x128 .f32) (a17 : FVec F S128 .f32) :
    FVec F S1x128 .f32 :=
  headOfR (refPool (refStep (refStep (refH0 x e W0 b0 g0 be0) e W1 b1 g1 be1) e W2 b2 g2 be2)) a14 a15 a16 a17

def specH0 (x : FVec Ideal S50000x128 .f32) (e : IVec S2x800000 32) (W : FVec Ideal S128x64 .f32)
    (b g be : FVec Ideal S64 .f32) : FVec Ideal S50000x64 .f32 :=
  GnnSpec.layerArr (aggOfR (F := Ideal) (GnnSpec.prodArr x W) (srcOfR e) (dstOfR e) (nrmOfR e))
    (GnnSpec.vec b) (GnnSpec.vec g) (GnnSpec.vec be)

def specStep (h : FVec Ideal S50000x64 .f32) (e : IVec S2x800000 32) (W : FVec Ideal S64x64 .f32)
    (b g be : FVec Ideal S64 .f32) : FVec Ideal S50000x64 .f32 :=
  GnnSpec.layerResArr (aggOfR (F := Ideal) (GnnSpec.prodArr h W) (srcOfR e) (dstOfR e) (nrmOfR e))
    (GnnSpec.vec b) (GnnSpec.vec g) (GnnSpec.vec be) h

theorem refH0_eq (x : FVec Ideal S50000x128 .f32) (e : IVec S2x800000 32) (W : FVec Ideal S128x64 .f32)
    (b g be : FVec Ideal S64 .f32) : refH0 x e W b g be = specH0 x e W b g be := by
  unfold refH0 specH0
  rw [refLayer_eq, refProd0_eq]

theorem refStep_eq (h : FVec Ideal S50000x64 .f32) (e : IVec S2x800000 32) (W : FVec Ideal S64x64 .f32)
    (b g be : FVec Ideal S64 .f32) : refStep h e W b g be = specStep h e W b g be := by
  unfold refStep specStep
  rw [refLayerRes_eq, refProd1_eq]

theorem refMain_eq (x : FVec Ideal S50000x128 .f32) (e : IVec S2x800000 32)
    (W0 : FVec Ideal S128x64 .f32) (b0 g0 be0 : FVec Ideal S64 .f32)
    (W1 : FVec Ideal S64x64 .f32) (b1 g1 be1 : FVec Ideal S64 .f32)
    (W2 : FVec Ideal S64x64 .f32) (b2 g2 be2 : FVec Ideal S64 .f32)
    (a14 : FVec Ideal S64x64 .f32) (a15 : FVec Ideal S64 .f32) (a16 : FVec Ideal S64x128 .f32) (a17 : FVec Ideal S128 .f32) :
    refMain x e W0 b0 g0 be0 W1 b1 g1 be1 W2 b2 g2 be2 a14 a15 a16 a17
      = headOfR (F := Ideal)
          (GnnSpec.colMeanArr (specStep (specStep (specH0 x e W0 b0 g0 be0) e W1 b1 g1 be1) e W2 b2 g2 be2))
          a14 a15 a16 a17 := by
  unfold refMain
  rw [refPool_eq, refStep_eq, refStep_eq, refH0_eq]

end Cert.ReferenceIdeal.Hand

end
-- ==== Proof.RefRunA.lean ====
import proofs.«402883_j70007966925398_1_alg».proof.Proof.RefOps
import proofs.«402883_j70007966925398_1_alg».proof.Proof.RefChain

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem runA_src (W : Valuation τ sig (Elt F)) :
    after opsA W (Proc.devRef .tc main_v3) = srcOfR (W (Proc.devRef .tc main_arg1)) := by
  after_results_simp
  rfl

theorem runA_dst (W : Valuation τ sig (Elt F)) :
    after opsA W (Proc.devRef .tc main_v6) = dstOfR (W (Proc.devRef .tc main_arg1)) := by
  after_results_simp
  rfl

theorem runA_nrm (W : Valuation τ sig (Elt F)) :
    after opsA W (Proc.devRef .tc main_v28) = nrmOfR (F := F) (W (Proc.devRef .tc main_arg1)) := by
  after_results_simp
  rfl

theorem runPH (W : Valuation τ sig (Elt F)) :
    after opsPH W (Proc.devRef .tc main_v167)
      = headOfR (refPool (W (Proc.devRef .tc main_v156))) (W (Proc.devRef .tc main_arg14))
          (W (Proc.devRef .tc main_arg15)) (W (Proc.devRef .tc main_arg16)) (W (Proc.devRef .tc main_arg17)) := by
  after_results_simp
  rfl

end Cert.ReferenceIdeal.Hand

end
-- ==== Proof.RefRunB.lean ====
import proofs.«402883_j70007966925398_1_alg».proof.Proof.RefOps
import proofs.«402883_j70007966925398_1_alg».proof.Proof.RefChain

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem runL0a (W : Valuation τ sig (Elt F)) :
    after opsL0a W (Proc.devRef .tc main_v42)
      = aggOfR (refProd0 (W (Proc.devRef .tc main_arg0)) (W (Proc.devRef .tc main_arg2))) (W (Proc.devRef .tc main_v3)) (W (Proc.devRef .tc main_v6)) (W (Proc.devRef .tc main_v28)) := by
  after_results_simp
  rfl

theorem runL0b (W : Valuation τ sig (Elt F)) :
    after opsL0b W (Proc.devRef .tc main_v70)
      = refLayer (W (Proc.devRef .tc main_v42)) (W (Proc.devRef .tc main_arg3)) (W (Proc.devRef .tc main_arg4)) (W (Proc.devRef .tc main_arg5)) := by
  after_results_simp
  rfl

theorem runL1a (W : Valuation τ sig (Elt F)) :
    after opsL1a W (Proc.devRef .tc main_v84)
      = aggOfR (refProd1 (W (Proc.devRef .tc main_v70)) (W (Proc.devRef .tc main_arg6))) (W (Proc.devRef .tc main_v3)) (W (Proc.devRef .tc main_v6)) (W (Proc.devRef .tc main_v28)) := by
  after_results_simp
  rfl

theorem runL1b (W : Valuation τ sig (Elt F)) :
    after opsL1b W (Proc.devRef .tc main_v113)
      = refLayerRes (W (Proc.devRef .tc main_v84)) (W (Proc.devRef .tc main_arg7)) (W (Proc.devRef .tc main_arg8)) (W (Proc.devRef .tc main_arg9)) (W (Proc.devRef .tc main_v70)) := by
  after_results_simp
  rfl

theorem runL2a (W : Valuation τ sig (Elt F)) :
    after opsL2a W (Proc.devRef .tc main_v127)
      = aggOfR (refProd1 (W (Proc.devRef .tc main_v113)) (W (Proc.devRef .tc main_arg10))) (W (Proc.devRef .tc main_v3)) (W (Proc.devRef .tc main_v6)) (W (Proc.devRef .tc main_v28)) := by
  after_results_simp
  rfl

theorem runL2b (W : Valuation τ sig (Elt F)) :
    after opsL2b W (Proc.devRef .tc main_v156)
      = refLayerRes (W (Proc.devRef .tc main_v127)) (W (Proc.devRef .tc main_arg11)) (W (Proc.devRef .tc main_arg12)) (W (Proc.devRef .tc main_arg13)) (W (Proc.devRef .tc main_v113)) := by
  after_results_simp
  rfl

end Cert.ReferenceIdeal.Hand

end
-- ==== Proof.RefRun.lean ====
import proofs.«402883_j70007966925398_1_alg».proof.Proof.RefRunA
import proofs.«402883_j70007966925398_1_alg».proof.Proof.RefRunB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsAll : List (HloOp τ sig (Elt F)) :=
  opsA ++ (opsL0a ++ (opsL0b ++ (opsL1a ++ (opsL1b ++ (opsL2a ++ (opsL2b ++ opsPH))))))

set_option maxRecDepth 8192 in
set_option maxHeartbeats 4000000 in
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem opsAll_ok : (opsAll (F := F)).Forall fun op => op.fresh = ∅ ∧ op.bufs ⊆ tcRefs τ sig := by
  simp only [opsAll, List.forall_append]
  exact ⟨forget opsA_ok, forget opsL0a_ok, forget opsL0b_ok, forget opsL1a_ok, forget opsL1b_ok, forget opsL2a_ok, forget opsL2b_ok, forget opsPH_ok⟩

theorem after_all (W : Valuation τ sig (Elt F)) :
    after opsAll W = after opsPH (after opsL2b (after opsL2a (after opsL1b (after opsL1a (after opsL0b (after opsL0a
      (after opsA W))))))) := by
  rw [opsAll, after_append, after_append, after_append, after_append, after_append, after_append, after_append]

theorem after_all_keeps (W : Valuation τ sig (Elt F)) {r : Ref sig .tc}
    (h : r ∉ opsA_W ∧ r ∉ opsL0a_W ∧ r ∉ opsL0b_W ∧ r ∉ opsL1a_W ∧ r ∉ opsL1b_W ∧ r ∉ opsL2a_W ∧ r ∉ opsL2b_W ∧ r ∉ opsPH_W) :
    after opsAll W (Proc.devRef .tc r) = W (Proc.devRef .tc r) := by
  obtain ⟨h1, h2, h3, h4, h5, h6, h7, h8⟩ := h
  rw [after_all, keeps opsPH_ok h8, keeps opsL2b_ok h7, keeps opsL2a_ok h6, keeps opsL1b_ok h5,
    keeps opsL1a_ok h4, keeps opsL0b_ok h3, keeps opsL0a_ok h2, keeps opsA_ok h1]

theorem after_all_result (W : Valuation τ sig (Elt F)) :
    after opsAll W (Proc.devRef .tc main_v167)
      = refMain (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  rw [after_all, runPH]
  repeat (rw [keeps opsPH_ok]; rotate_left; decide)
  rw [runL2b]
  repeat (rw [keeps opsL2b_ok]; rotate_left; decide)
  rw [runL2a]
  repeat (rw [keeps opsL2a_ok]; rotate_left; decide)
  rw [runL1b]
  repeat (rw [keeps opsL1b_ok]; rotate_left; decide)
  rw [runL1a]
  repeat (rw [keeps opsL1a_ok]; rotate_left; decide)
  rw [runL0b]
  repeat (rw [keeps opsL0b_ok]; rotate_left; decide)
  rw [runL0a]
  repeat (rw [keeps opsL0a_ok]; rotate_left; decide)
  rw [runA_src, runA_dst, runA_nrm]
  repeat (rw [keeps opsA_ok]; rotate_left; decide)
  rfl

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v167)
        = refMain (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13))
            (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    have k (r : Ref sig .tc) hr : _ = m ((c.tc : Thread nD τ).loc r) := (h c r).trans (after_all_keeps (r := r) _ hr)
    ⟨(h c main_v167).trans (after_all_result _), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide), k main_arg17 (by decide)⟩)
    (run_seq scopedRefs_eq scopedSems_eq defs main (fun _ => opsAll) main_eq (fun _ => opsAll_ok.imp fun _ h => h.2) m ρ
      (fun _ => List.forall_iff_forall_mem.mp (opsAll_ok.imp fun _ h => h.1)))

end Cert.ReferenceIdeal.Hand

end
-- ==== Proof.KI.ValMM.lean ====
import proofs.«402883_j70007966925398_1_alg».proof.Proof.KI.Reg0
import proofs.«402883_j70007966925398_1_alg».proof.Proof.KI.Reg2
import proofs.«402883_j70007966925398_1_alg».proof.Proof.KI.Reg4
import proofs.«402883_j70007966925398_1_alg».proof.Proof.SpecArr
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

theorem hz : (![0, 0] : Fin 2 → Nat) = fun _ => 0 := funext fun a => by fin_cases a <;> rfl

-- A product contracted over one axis, re-indexed by that axis's coordinate: entry (y, j) is the sum over k of a (y, k) * b (k, j).
private theorem mm_apply {K : ℕ} (d : DotDims ⟨2, ![5000, K]⟩ ⟨2, ![K, 64]⟩ S5000x64) (hr : d.contr.rank = 1)
    (hs : d.contr.size ⟨0, by omega⟩ = K) (hl : d.lhsContracting = [1]) (hc : d.rhsContracting = [0])
    (hl0 : ∀ i q, (d.lhsIdx i q 0).val = (i 0).val) (hr1 : ∀ i q, (d.rhsIdx i q 1).val = (i 1).val)
    (a : FVec Ideal ⟨2, ![5000, K]⟩ .bf16) (b : FVec Ideal ⟨2, ![K, 64]⟩ .bf16) (y : Fin 5000) (j : Fin 64) :
    FloatOps.matmul d none a b (constant (F := Ideal) S5000x64 .f32 0x00000000#32) (ix2 y j)
      = ∑ k : Fin K, a (ix2 y k) * b (ix2 k j) := by
  rw [Ideal.matmul_constant_zero_apply, ← Equiv.sum_comp (contrEquiv1 d K hr hs).symm]
  refine Finset.sum_congr rfl fun k _ => ?_
  have hk := contrEquiv1_symm_val d K hr hs k
  rw [Shape.idx_ext₂ (y := ix2 y k) (hl0 _ _) ((d.lhsIdx_val_of_single hl _ _).trans hk),
    Shape.idx_ext₂ (y := ix2 k j) ((d.rhsIdx_val_of_single hc _ _).trans hk) (hr1 _ _)]

private theorem pay0_apply (x0 : Vec Ideal S5000x128 .f32) (x1 : Vec Ideal S128x64 .f32) (y : Fin 5000) (j : Fin 64) :
    k0_pay1 (F := Ideal) x0 x1 (ix2 y j) = ∑ k : Fin 128, x0 (ix2 y k) * x1 (ix2 k j) :=
  mm_apply dot_S5000x128_S128x64_S5000x64_1_0_0_1_n_n rfl rfl rfl rfl (fun _ _ => rfl) (fun _ _ => rfl) _ _ y j

private theorem pay2_apply (x0 : Vec Ideal S5000x64 .f32) (x1 : Vec Ideal S64x64 .f32) (y : Fin 5000) (j : Fin 64) :
    k2_pay1 (F := Ideal) x0 x1 (ix2 y j) = ∑ k : Fin 64, x0 (ix2 y k) * x1 (ix2 k j) := by
  unfold k2_pay1
  rw [shapeCast_self]
  exact mm_apply dot_S5000x64_S64x64_S5000x64_1_0_0_1_n_n rfl rfl rfl rfl (fun _ _ => rfl) (fun _ _ => rfl) _ _ y j

-- An embedding at block index (q, 0) sends block entry (p, k) to array entry (q * a + p, k).
theorem emb_ix2 {a b a' b' : ℕ} (e : (⟨2, ![a, b]⟩ : Shape).Idx → (⟨2, ![a', b']⟩ : Shape).Idx) {i : Fin 2 → ℕ} {q : ℕ}
    (h : ∀ x ax, (e x ax).val = i ax * (⟨2, ![a, b]⟩ : Shape).size ax + 1 * (x ax).val) (hi : i = ![q, 0])
    (p : Fin a) (k : Fin b) (r : Fin a') (hr : r.val = q * a + p.val) (k' : Fin b') (hk : k'.val = k.val) :
    e (ix2 p k) = ix2 r k' := by
  subst hi
  refine Shape.idx_ext₂ ((h _ _).trans ?_) ((h _ _).trans ?_)
  · show q * a + 1 * p.val = r.val; omega
  · show 0 * b + 1 * k.val = k'.val; omega

-- With the feature and output blocks at row block t and the weight whole, the block product is the arrays' product there.
private theorem prod_block {K : ℕ} (P : ((⟨2, ![5000, K]⟩ : Shape).Idx → EReal) → ((⟨2, ![K, 64]⟩ : Shape).Idx → EReal) → S5000x64.Idx → EReal)
    (hP : ∀ x0 x1 (y : Fin 5000) (j : Fin 64), P x0 x1 (ix2 y j) = ∑ k : Fin K, x0 (ix2 y k) * x1 (ix2 k j))
    (A : (⟨2, ![50000, K]⟩ : Shape).Idx → EReal) (W : (⟨2, ![K, 64]⟩ : Shape).Idx → EReal)
    (e0 : (⟨2, ![5000, K]⟩ : Shape).Idx → (⟨2, ![50000, K]⟩ : Shape).Idx) (e1 : (⟨2, ![K, 64]⟩ : Shape).Idx → (⟨2, ![K, 64]⟩ : Shape).Idx)
    (e2 : S5000x64.Idx → S50000x64.Idx) {i0 i1 i2 : Fin 2 → ℕ} {t : ℕ} (ht : t < 10)
    (h0 : ∀ x a, (e0 x a).val = i0 a * (⟨2, ![5000, K]⟩ : Shape).size a + 1 * (x a).val)
    (h1 : ∀ x a, (e1 x a).val = i1 a * (⟨2, ![K, 64]⟩ : Shape).size a + 1 * (x a).val)
    (h2 : ∀ x a, (e2 x a).val = i2 a * S5000x64.size a + 1 * (x a).val)
    (f : i0 = ![t, 0] ∧ i1 = ![0, 0] ∧ i2 = ![t, 0]) (y : S5000x64.Idx) :
    P (fun x => A (e0 x)) (fun x => W (e1 x)) y = GnnSpec.prodArr A W (e2 y) := by
  obtain ⟨p, j, rfl⟩ : ∃ (p : Fin 5000) (j : Fin 64), y = ix2 p j := ⟨y 0, y 1, eq_ix2 y⟩
  have hr : t * 5000 + p.val < 50000 := by have := p.isLt; omega
  rw [hP, emb_ix2 e2 h2 f.2.2 p j ⟨_, hr⟩ rfl j rfl]
  unfold GnnSpec.prodArr
  rw [GnnSpec.arr_ix2]
  unfold GnnSpec.prod GnnSpec.rows
  refine Finset.sum_congr rfl fun k _ => ?_
  rw [emb_ix2 e0 h0 f.1 p k ⟨_, hr⟩ rfl k rfl, emb_ix2 e1 h1 f.2.1 k j k (by omega) j rfl]

-- Ten blocks of 5000 rows tile the 50000 rows: row r lies in block r / 5000.
theorem rows_cover {N : ℕ} (hN : N = 10) {idx : Fin N → Fin 2 → ℕ} (hidx : ∀ t, idx t = ![t.val, 0])
    {fl : Fin N → Prop} (hfl : ∀ t, fl t) {S : Fin N → Finset S50000x64.Idx}
    {inb : ∀ t (a : Fin 2), idx t a * S5000x64.size a + S5000x64.size a ≤ S50000x64.size a}
    (hS : ∀ t, S t = (Rect.unit (s := S50000x64) (fun a => idx t a * S5000x64.size a) S5000x64.size (inb t)).set)
    (i : S50000x64.Idx) : ∃ t, fl t ∧ i ∈ S t := by
  have hi0 : (i 0).val < 50000 := (i 0).isLt
  have hi1 : (i 1).val < 64 := (i 1).isLt
  refine ⟨⟨(i 0).val / 5000, by omega⟩, hfl _, ?_⟩
  rw [hS, Rect.mem_set_unit, hidx]
  intro a
  match a with
  | ⟨0, _⟩ => show (i 0).val / 5000 * 5000 ≤ (i 0).val ∧ (i 0).val < (i 0).val / 5000 * 5000 + 5000; omega
  | ⟨1, _⟩ => show 0 * 64 ≤ (i 1).val ∧ (i 1).val < 0 * 64 + 64; omega

variable (V : (c : Dev nD) → (b : Ref sig .tc) → Buf (Elt Ideal) ((c : Thread nD τ).loc b))

private theorem idx0 : ∀ t : Fin cfg0.N, win0_0.index t = ![t.val, 0] ∧ win0_1.index t = ![0, 0] ∧ win0_2.index t = ![t.val, 0] :=
  (by decide +kernel : ∀ t : Fin grid0.N, _)

theorem arr0_eq (c : Dev nD) : (dat0 (F := Ideal) V c).arrAt 2 cfg0.N = GnnSpec.prodArr (V c main_arg0) (V c main_arg2) :=
  (dat0 (F := Ideal) V c).arrAt_eq_of_cover 2 _ (fun t _ => by
    show (cfg0.win 2).cut (grid0.coords t) ((dat0 V c).after 2 t) = _
    rw [dat0_after2]
    unfold out0
    rw [View.canon_unit_zero hz]
    simp only [View.ld_unit_zero (S := S5000x128) hz, View.ld_unit_zero (S := S128x64) hz]
    exact funext (prod_block (K := 128) (k0_pay1 (F := Ideal)) pay0_apply (V c main_arg0) (V c main_arg2)
      ((cfg0.win 0).blk t).view.emb ((cfg0.win 1).blk t).view.emb ((cfg0.win 2).blk t).view.emb
      (Nat.lt_of_lt_of_eq t.isLt N_0) (fun _ _ => rfl) (fun _ _ => rfl) (fun _ _ => rfl) (idx0 t)))
    (rows_cover N_0 (fun t => (idx0 t).2.2) flush0_2 fun t => View.set_slice_whole _ _)

private theorem idx2 : ∀ t : Fin cfg2.N, win2_0.index t = ![t.val, 0] ∧ win2_1.index t = ![0, 0] ∧ win2_2.index t = ![t.val, 0] :=
  (by decide +kernel : ∀ t : Fin grid2.N, _)

theorem arr2_eq (c : Dev nD) : (dat2 (F := Ideal) V c).arrAt 2 cfg2.N = GnnSpec.prodArr (V c main_v40) (V c main_arg6) :=
  (dat2 (F := Ideal) V c).arrAt_eq_of_cover 2 _ (fun t _ => by
    show (cfg2.win 2).cut (grid2.coords t) ((dat2 V c).after 2 t) = _
    rw [dat2_after2]
    unfold out2
    rw [View.canon_unit_zero hz]
    simp only [View.ld_unit_zero (S := S5000x64) hz, View.ld_unit_zero (S := S64x64) hz]
    exact funext (prod_block (K := 64) (k2_pay1 (F := Ideal)) pay2_apply (V c main_v40) (V c main_arg6)
      ((cfg2.win 0).blk t).view.emb ((cfg2.win 1).blk t).view.emb ((cfg2.win 2).blk t).view.emb
      (Nat.lt_of_lt_of_eq t.isLt N_2) (fun _ _ => rfl) (fun _ _ => rfl) (fun _ _ => rfl) (idx2 t)))
    (rows_cover N_2 (fun t => (idx2 t).2.2) flush2_2 fun t => View.set_slice_whole _ _)

private theorem idx4 : ∀ t : Fin cfg4.N, win4_0.index t = ![t.val, 0] ∧ win4_1.index t = ![0, 0] ∧ win4_2.index t = ![t.val, 0] :=
  (by decide +kernel : ∀ t : Fin grid4.N, _)

theorem arr4_eq (c : Dev nD) : (dat4 (F := Ideal) V c).arrAt 2 cfg4.N = GnnSpec.prodArr (V c main_v52) (V c main_arg10) :=
  (dat4 (F := Ideal) V c).arrAt_eq_of_cover 2 _ (fun t _ => by
    show (cfg4.win 2).cut (grid4.coords t) ((dat4 V c).after 2 t) = _
    rw [dat4_after2]
    unfold out4
    rw [View.canon_unit_zero hz]
    simp only [View.ld_unit_zero (S := S5000x64) hz, View.ld_unit_zero (S := S64x64) hz]
    exact funext (prod_block (K := 64) (k4_pay1 (F := Ideal)) pay2_apply (V c main_v52) (V c main_arg10)
      ((cfg4.win 0).blk t).view.emb ((cfg4.win 1).blk t).view.emb ((cfg4.win 2).blk t).view.emb
      (Nat.lt_of_lt_of_eq t.isLt N_4) (fun _ _ => rfl) (fun _ _ => rfl) (fun _ _ => rfl) (idx4 t)))
    (rows_cover N_4 (fun t => (idx4 t).2.2) flush4_2 fun t => View.set_slice_whole _ _)

end Cert.KernelIdeal.Hand

end
-- ==== Proof.KI.ValLN.lean ====
import proofs.«402883_j70007966925398_1_alg».proof.Proof.KI.Reg1
import proofs.«402883_j70007966925398_1_alg».proof.Proof.KI.Reg3
import proofs.«402883_j70007966925398_1_alg».proof.Proof.KI.Reg5
import proofs.«402883_j70007966925398_1_alg».proof.Proof.KI.ValMM
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem rowSum_apply (x : FVec Ideal S5000x64 .f32) (h : S5000x64.Reduces [1] S5000) (hφ : FTy.f32 = FTy.f32 ∨ FTy.f32 = FTy.bf16)
    (hacc : (0x00000000#32 : BitVec 32) = 0x00000000#32) (y : Fin 5000) :
    multiReduction .add [1] S5000 x 0x00000000#32 h hφ hacc (ix1 y) = ∑ k : Fin 64, x (ix2 y k) := by
  refine (Ideal.multiReduction_add_single x 0x00000000#32 h hφ hacc (ix1 y)).trans ?_
  refine Finset.sum_congr rfl fun k _ => congrArg x ?_
  funext c
  match c with
  | ⟨0, _⟩ => rfl
  | ⟨1, _⟩ => rfl

private theorem rsqrt_ix {s : Shape} {φ : FTy} (a : FVec Ideal s φ) (i : s.Idx) : rsqrt a i = Ideal.rsqrt (a i) := rfl

-- Entry (y, j) of the stored value is the specification's normalised row, of row y of the block plus the bias row, at j.
private theorem k1_pay1_apply (v0 : Vec Ideal S5000x64 .f32) (v2 v24 v28 : Vec Ideal S1x64 .f32) (y : Fin 5000) (j : Fin 64) :
    k1_pay1 v0 v2 v24 v28 (ix2 y j)
      = GnnSpec.normRelu (fun k => v0 (ix2 y k) + v2 (ix2 0 k)) (fun k => v24 (ix2 0 k)) (fun k => v28 (ix2 0 k)) j := by
  unfold k1_pay1
  simp only [shapeCast_self, maximumf_apply, addf_apply, mulf_apply, subf_apply, divf_apply, rsqrt_ix, broadcast_apply,
    broadcastTo_1b_ab_apply, broadcastTo_a1_ab_apply, shapeCast_a_a1_apply, rowSum_apply]
  rw [rowSum_apply, rowSum_apply]
  simp only [mulf_apply, subf_apply, addf_apply, divf_apply, broadcast_apply, broadcastTo_1b_ab_apply,
    broadcastTo_a1_ab_apply, shapeCast_a_a1_apply]
  rw [rowSum_apply]
  simp only [addf_apply, broadcastTo_1b_ab_apply, Ideal.ofBits_def]
  rfl

private theorem k3_pay1_eq (v0 : Vec Ideal S5000x64 .f32) (v2 v24 v28 : Vec Ideal S1x64 .f32) (v32 : Vec Ideal S5000x64 .f32) :
    k3_pay1 v0 v2 v24 v28 v32 = addf v32 (k1_pay1 v0 v2 v24 v28) := by
  unfold k3_pay1 k1_pay1
  simp only [shapeCast_self]

section
variable (A : S50000x64.Idx → EReal) (B G Be : S1x64.Idx → EReal)
  (e0 eo : S5000x64.Idx → S50000x64.Idx) (e1 e2 e3 : S1x64.Idx → S1x64.Idx)
  {i0 i1 i2 i3 io : Fin 2 → ℕ} {t : ℕ} (ht : t < 10)
  (h0 : ∀ x a, (e0 x a).val = i0 a * S5000x64.size a + 1 * (x a).val)
  (ho : ∀ x a, (eo x a).val = io a * S5000x64.size a + 1 * (x a).val)
  (h1 : ∀ x a, (e1 x a).val = i1 a * S1x64.size a + 1 * (x a).val)
  (h2 : ∀ x a, (e2 x a).val = i2 a * S1x64.size a + 1 * (x a).val)
  (h3 : ∀ x a, (e3 x a).val = i3 a * S1x64.size a + 1 * (x a).val)
  (f : i0 = ![t, 0] ∧ io = ![t, 0] ∧ i1 = ![0, 0] ∧ i2 = ![0, 0] ∧ i3 = ![0, 0])
include ht h0 ho h1 h2 h3 f

-- With the feature and output blocks at row block t and the bias, scale and shift rows whole, the stored block is the layer's.
private theorem layer_block (y : S5000x64.Idx) :
    k1_pay1 (F := Ideal) (fun x => A (e0 x)) (fun x => B (e1 x)) (fun x => G (e2 x)) (fun x => Be (e3 x)) y
      = GnnSpec.layerArr A (GnnSpec.row0 B) (GnnSpec.row0 G) (GnnSpec.row0 Be) (eo y) := by
  obtain ⟨p, j, rfl⟩ : ∃ (p : Fin 5000) (j : Fin 64), y = ix2 p j := ⟨y 0, y 1, eq_ix2 y⟩
  have hr : t * 5000 + p.val < 50000 := by have := p.isLt; omega
  rw [k1_pay1_apply, emb_ix2 eo ho f.2.1 p j ⟨_, hr⟩ rfl j rfl]
  simp only [fun k => emb_ix2 e0 h0 f.1 p k ⟨_, hr⟩ rfl k rfl, fun k => emb_ix2 e1 h1 f.2.2.1 0 k 0 rfl k rfl,
    fun k => emb_ix2 e2 h2 f.2.2.2.1 0 k 0 rfl k rfl, fun k => emb_ix2 e3 h3 f.2.2.2.2 0 k 0 rfl k rfl]
  rfl

-- The same with the incoming block, at row block t too, added entry by entry.
private theorem layerRes_block (R : S50000x64.Idx → EReal) (e4 : S5000x64.Idx → S50000x64.Idx) {i4 : Fin 2 → ℕ}
    (h4 : ∀ x a, (e4 x a).val = i4 a * S5000x64.size a + 1 * (x a).val) (f4 : i4 = ![t, 0]) (y : S5000x64.Idx) :
    k3_pay1 (F := Ideal) (fun x => A (e0 x)) (fun x => B (e1 x)) (fun x => G (e2 x)) (fun x => Be (e3 x)) (fun x => R (e4 x)) y
      = GnnSpec.layerResArr A (GnnSpec.row0 B) (GnnSpec.row0 G) (GnnSpec.row0 Be) R (eo y) := by
  rw [k3_pay1_eq, addf_apply, layer_block A B G Be e0 eo e1 e2 e3 ht h0 ho h1 h2 h3 f]
  obtain ⟨p, j, rfl⟩ : ∃ (p : Fin 5000) (j : Fin 64), y = ix2 p j := ⟨y 0, y 1, eq_ix2 y⟩
  have hr : t * 5000 + p.val < 50000 := by have := p.isLt; omega
  rw [emb_ix2 e4 h4 f4 p j ⟨_, hr⟩ rfl j rfl, emb_ix2 eo ho f.2.1 p j ⟨_, hr⟩ rfl j rfl]
  rfl

end

variable (V : (c : Dev nD) → (b : Ref sig .tc) → Buf (Elt Ideal) ((c : Thread nD τ).loc b))

private theorem idx1 : ∀ t : Fin cfg1.N, win1_0.index t = ![t.val, 0]
    ∧ win1_4.index t = ![t.val, 0]
    ∧ win1_1.index t = ![0, 0]
    ∧ win1_2.index t = ![0, 0]
    ∧ win1_3.index t = ![0, 0] :=
  (by decide +kernel : ∀ t : Fin grid1.N, _)

theorem arr1_eq (c : Dev nD) :
    (dat1 (F := Ideal) V c).arrAt 4 cfg1.N
      = GnnSpec.layerArr (V c main_v36) (GnnSpec.row0 (V c main_v37)) (GnnSpec.row0 (V c main_v38)) (GnnSpec.row0 (V c main_v39)) :=
  (dat1 (F := Ideal) V c).arrAt_eq_of_cover 4 _ (fun t _ => by
    show (cfg1.win 4).cut (grid1.coords t) ((dat1 V c).after 4 t) = _
    rw [dat1_after4]
    unfold out1
    rw [View.canon_unit_zero hz]
    simp only [View.ld_unit_zero (S := S5000x64) hz, View.ld_unit_zero (S := S1x64) hz]
    exact funext (layer_block (V c main_v36) (V c main_v37) (V c main_v38) (V c main_v39)
      ((cfg1.win 0).blk t).view.emb ((cfg1.win 4).blk t).view.emb ((cfg1.win 1).blk t).view.emb ((cfg1.win 2).blk t).view.emb ((cfg1.win 3).blk t).view.emb
      (Nat.lt_of_lt_of_eq t.isLt N_1) (fun _ _ => rfl) (fun _ _ => rfl) (fun _ _ => rfl) (fun _ _ => rfl) (fun _ _ => rfl) (idx1 t)))
    (rows_cover N_1 (fun t => (idx1 t).2.1) flush1_4 fun t => View.set_slice_whole _ _)

private theorem idx3 : ∀ t : Fin cfg3.N, (win3_0.index t = ![t.val, 0]
    ∧ win3_5.index t = ![t.val, 0]
    ∧ win3_1.index t = ![0, 0]
    ∧ win3_2.index t = ![0, 0]
    ∧ win3_3.index t = ![0, 0])
    ∧ win3_4.index t = ![t.val, 0] :=
  (by decide +kernel : ∀ t : Fin grid3.N, _)

theorem arr3_eq (c : Dev nD) :
    (dat3 (F := Ideal) V c).arrAt 5 cfg3.N
      = GnnSpec.layerResArr (V c main_v48) (GnnSpec.row0 (V c main_v49)) (GnnSpec.row0 (V c main_v50)) (GnnSpec.row0 (V c main_v51)) (V c main_v40) :=
  (dat3 (F := Ideal) V c).arrAt_eq_of_cover 5 _ (fun t _ => by
    show (cfg3.win 5).cut (grid3.coords t) ((dat3 V c).after 5 t) = _
    rw [dat3_after5]
    unfold out3
    rw [View.canon_unit_zero hz]
    simp only [View.ld_unit_zero (S := S5000x64) hz, View.ld_unit_zero (S := S1x64) hz]
    exact funext (layerRes_block (V c main_v48) (V c main_v49) (V c main_v50) (V c main_v51)
      ((cfg3.win 0).blk t).view.emb ((cfg3.win 5).blk t).view.emb ((cfg3.win 1).blk t).view.emb ((cfg3.win 2).blk t).view.emb ((cfg3.win 3).blk t).view.emb
      (Nat.lt_of_lt_of_eq t.isLt N_3) (fun _ _ => rfl) (fun _ _ => rfl) (fun _ _ => rfl) (fun _ _ => rfl) (fun _ _ => rfl) (idx3 t).1
      (V c main_v40) ((cfg3.win 4).blk t).view.emb (fun _ _ => rfl) (idx3 t).2))
    (rows_cover N_3 (fun t => (idx3 t).1.2.1) flush3_5 fun t => View.set_slice_whole _ _)

private theorem idx5 : ∀ t : Fin cfg5.N, (win5_0.index t = ![t.val, 0]
    ∧ win5_5.index t = ![t.val, 0]
    ∧ win5_1.index t = ![0, 0]
    ∧ win5_2.index t = ![0, 0]
    ∧ win5_3.index t = ![0, 0])
    ∧ win5_4.index t = ![t.val, 0] :=
  (by decide +kernel : ∀ t : Fin grid5.N, _)

theorem arr5_eq (c : Dev nD) :
    (dat5 (F := Ideal) V c).arrAt 5 cfg5.N
      = GnnSpec.layerResArr (V c main_v60) (GnnSpec.row0 (V c main_v61)) (GnnSpec.row0 (V c main_v62)) (GnnSpec.row0 (V c main_v63)) (V c main_v52) :=
  (dat5 (F := Ideal) V c).arrAt_eq_of_cover 5 _ (fun t _ => by
    show (cfg5.win 5).cut (grid5.coords t) ((dat5 V c).after 5 t) = _
    rw [dat5_after5]
    unfold out5
    rw [View.canon_unit_zero hz]
    simp only [View.ld_unit_zero (S := S5000x64) hz, View.ld_unit_zero (S := S1x64) hz]
    exact funext (layerRes_block (V c main_v60) (V c main_v61) (V c main_v62) (V c main_v63)
      ((cfg5.win 0).blk t).view.emb ((cfg5.win 5).blk t).view.emb ((cfg5.win 1).blk t).view.emb ((cfg5.win 2).blk t).view.emb ((cfg5.win 3).blk t).view.emb
      (Nat.lt_of_lt_of_eq t.isLt N_5) (fun _ _ => rfl) (fun _ _ => rfl) (fun _ _ => rfl) (fun _ _ => rfl) (fun _ _ => rfl) (idx5 t).1
      (V c main_v52) ((cfg5.win 4).blk t).view.emb (fun _ _ => rfl) (idx5 t).2))
    (rows_cover N_5 (fun t => (idx5 t).1.2.1) flush5_5 fun t => View.set_slice_whole _ _)

end Cert.KernelIdeal.Hand

end
-- ==== Proof.KI.Val6.lean ====
import proofs.«402883_j70007966925398_1_alg».proof.Proof.SpecArr
import proofs.«402883_j70007966925398_1_alg».proof.Proof.KI.Reg6Data
import Idealize.ShloMosaic.Lib.Pipeline.Value
import Mathlib.Logic.Equiv.Fin.Basic

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem zeroRow_at (j : Fin 64) : (k6_pay1 (F := Ideal)) (ix2 0 j) = 0 := by
  unfold k6_pay1
  rw [shapeCast_self, broadcast_apply]
  exact Ideal.ofBits_zero_f32

theorem stepRow_at (v3 : FVec Ideal S1x64 .f32) (v4 : FVec Ideal S5000x64 .f32) (j : Fin 64) :
    k6_pay2 v3 v4 (ix2 0 j) = v3 (ix2 0 j) + ∑ y : Fin 5000, v4 (ix2 y j) := by
  unfold k6_pay2
  rw [shapeCast_self, addf_apply]
  congr 1
  rw [shapeCast_addUnit_apply ![64]]
  refine (Ideal.multiReduction_add_single _ _ _ _ _ _).trans ?_
  rw [shapeCast_self]
  refine Finset.sum_congr rfl fun y _ => congrArg v4 ?_
  funext a
  match a with
  | ⟨0, _⟩ => rfl
  | ⟨1, _⟩ => rfl

theorem invCount6 : Named.named (F := Ideal) κ "inv_50000" (φ := .f32) 0x37A7C5AC#32 = ((1 / 50000 : ℝ) : EReal) :=
  IdealRules.named_const.ideal_named_scalar _ _ _ _ rfl

theorem scaledRow_at (v : FVec Ideal S1x64 .f32) (j : Fin 64) :
    k6_pay3 v (ix2 0 j) = v (ix2 0 j) * ((1 / 50000 : ℝ) : EReal) := by
  unfold k6_pay3
  rw [mulf_apply, broadcast_apply, invCount6]

-- Fifty thousand rows read as ten blocks of five thousand.
theorem sum_rows_by_block (g : ℕ → EReal) :
    ∑ r : Fin 50000, g r.val = ∑ s : Fin 10, ∑ y : Fin 5000, g (5000 * s.val + y.val) := by
  have h := (Equiv.sum_comp (finProdFinEquiv (m := 10) (n := 5000)) (fun r : Fin (10 * 5000) => g r.val)).symm
  rw [Fintype.sum_prod_type] at h
  refine h.trans (Finset.sum_congr rfl fun s _ => Finset.sum_congr rfl fun y _ => ?_)
  show g (y.val + 5000 * s.val) = _
  rw [Nat.add_comm]

variable (V : (c : Dev nD) → (b : Ref sig .tc) → Buf (Elt Ideal) ((c : Thread nD τ).loc b))

def col6 (c : Dev nD) (j : Fin 64) (r : ℕ) : EReal :=
  if h : r < 50000 then V c main_v64 (ix2 ⟨r, h⟩ j) else 0

theorem blockIndex6 : ∀ t : Fin cfg6.N, win6_0.index t (0 : Fin 2) = t.val ∧ win6_0.index t (1 : Fin 2) = 0
    ∧ win6_1.index t (0 : Fin 2) = 0 ∧ win6_1.index t (1 : Fin 2) = 0 :=
  (by decide +kernel : ∀ t : Fin grid6.N, _)

theorem lt_ten6 (t : Fin cfg6.N) : t.val < 10 := by have h := t.isLt; have e : cfg6.N = 10 := N_6; omega

theorem pt6_val_lt (n : ℕ) (h : n < 10) : (pt6 n).val = n :=
  congrArg Fin.val (pt6_val ⟨n, by have e : cfg6.N = 10 := N_6; omega⟩)

theorem blk6_at (c : Dev nD) (t : Fin cfg6.N) (y : Fin 5000) (j : Fin 64) :
    blk6 V c 0 t (ix2 y j) = col6 V c j (5000 * t.val + y.val) := by
  have ht := lt_ten6 t
  obtain ⟨e0, e1, -, -⟩ := blockIndex6 t
  unfold blk6 col6
  rw [View.read_apply, dif_pos (by omega)]
  show V c main_v64 _ = V c main_v64 _
  refine congrArg (V c main_v64) ?_
  funext a; apply Fin.ext
  match a with
  | ⟨0, _⟩ => show win6_0.index t (0 : Fin 2) * 5000 + 1 * y.val = 5000 * t.val + y.val; omega
  | ⟨1, _⟩ => show win6_0.index t (1 : Fin 2) * 64 + 1 * j.val = j.val; omega

theorem acc6_at (c : Dev nD) (j : Fin 64) : ∀ n : ℕ, n < 10 →
    acc6 V c n (ix2 0 j) = ∑ s ∈ Finset.range (n + 1), ∑ y : Fin 5000, col6 V c j (5000 * s + y.val)
  | 0, _ => by
    show k6_pay2 (k6_pay1 (F := Ideal)) (blk6 V c 0 (pt6 0)) (ix2 0 j) = _
    refine (stepRow_at _ _ j).trans ?_
    rw [zeroRow_at, zero_add, Finset.sum_range_one]
    refine Finset.sum_congr rfl fun y _ => ?_
    rw [blk6_at, pt6_val_lt 0 (by omega)]
  | n + 1, h => by
    show k6_pay2 (acc6 V c n) (blk6 V c 0 (pt6 (n + 1))) (ix2 0 j) = _
    refine (stepRow_at _ _ j).trans ?_
    rw [acc6_at c j n (by omega), Finset.sum_range_succ _ (n + 1)]
    refine congrArg (fun z => _ + z) ?_
    refine Finset.sum_congr rfl fun y _ => ?_
    rw [blk6_at, pt6_val_lt (n + 1) h]

-- Ten block sums of 5000 rows regroup to the sum over all 50000 rows, and the named constant is 1/50000.
theorem arr6_eq (c : Dev nD) : (dat6 (F := Ideal) V c).arrAt 1 cfg6.N = GnnSpec.colMeanArr (V c main_v64) := by
  refine (dat6 V c).arrAt_eq_of_cover 1 _ (fun t hf => ?_) (fun i => ⟨t6_9, (flush6_1 t6_9).2 (by decide), ?_⟩)
  · have h9 : t = t6_9 := by
      have h1 := (flush6_1 t).1 hf
      have h2 := lt_ten6 t
      apply Fin.ext
      show t.val = 9
      omega
    subst h9
    show (cfg6.win 1).cut (grid6.coords t6_9) ((dat6 V c).after 1 t6_9) = _
    rw [dat6_after1_last]
    obtain ⟨-, -, e2, e3⟩ := blockIndex6 t6_9
    funext i
    revert i
    show ∀ i : (⟨2, ![1, 64]⟩ : Shape).Idx,
      k6_pay3 (acc6 V c 9) i = GnnSpec.colMeanArr (V c main_v64) (((cfg6.win 1).blk t6_9).view.emb i)
    intro i
    obtain ⟨p, j, rfl⟩ : ∃ (p : Fin 1) (j : Fin 64), i = ix2 p j := ⟨i 0, i 1, eq_ix2 i⟩
    have hp : p = 0 := Subsingleton.elim _ _
    subst hp
    have hemb : ((cfg6.win 1).blk t6_9).view.emb (ix2 (0 : Fin 1) j) = ix2 (0 : Fin 1) j := by
      funext a; apply Fin.ext
      match a with
      | ⟨0, _⟩ => show win6_1.index t6_9 (0 : Fin 2) * 1 + 1 * 0 = 0; omega
      | ⟨1, _⟩ => show win6_1.index t6_9 (1 : Fin 2) * 64 + 1 * j.val = j.val; omega
    rw [hemb]
    refine (scaledRow_at _ j).trans ?_
    show _ = (∑ r : Fin 50000, GnnSpec.rows (V c main_v64) r j) * ((1 / 50000 : ℝ) : EReal)
    refine congrArg (fun z => z * _) ?_
    rw [acc6_at V c j 9 (by omega), Finset.sum_range, ← sum_rows_by_block (col6 V c j)]
    refine Finset.sum_congr rfl fun r _ => ?_
    unfold col6 GnnSpec.rows
    rw [dif_pos r.isLt]
  · show i ∈ ((View.whole main_v65).slice (win6_1.rect t6_9)).set
    rw [View.set_slice_whole, Rect.mem_set_unit]
    obtain ⟨-, -, e2, e3⟩ := blockIndex6 t6_9
    have h0 : (i 0).val < 1 := idx2_lt0 (n0 := 1) (n1 := 64) i
    have h1 : (i 1).val < 64 := idx2_lt1 (n0 := 1) (n1 := 64) i
    intro a
    match a with
    | ⟨0, _⟩ => show win6_1.index t6_9 (0 : Fin 2) * 1 ≤ (i 0).val ∧ (i 0).val < win6_1.index t6_9 (0 : Fin 2) * 1 + 1; omega
    | ⟨1, _⟩ => show win6_1.index t6_9 (1 : Fin 2) * 64 ≤ (i 1).val ∧ (i 1).val < win6_1.index t6_9 (1 : Fin 2) * 64 + 64; omega

end Cert.KernelIdeal.Hand

end
-- ==== Proof.KI.Take.lean ====
import proofs.«402883_j70007966925398_1_alg».proof.Proof.Gen.KernelIdeal.Regions
import proofs.«402883_j70007966925398_1_alg».proof.Proof.SpecArr
import Idealize.ShloMosaic.Lib.StableHlo.Predicate
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F] [Named F]

-- A negative id has the number of nodes added.
def wrapIds (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

def idCol (s : IVec S850000 32) : IVec S850000x1 32 :=
  broadcastInDim S850000x1 ![0] bcast_S850000_S850000x1_0 (wrapIds s)

-- Row e of g multiplied by the weight of edge e and added into row (target id of e) of an array of zeros.
def aggWith (g : FVec F S850000x64 .f32) (dst : IVec S850000 32) (nrm : FVec F S850000 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf g (broadcastInDim S850000x64 ![0, 1] bcast_S850000x1_S850000x64_0_1 (broadcastInDim S850000x1 ![0] bcast_S850000_S850000x1_0 nrm)))

def aggOf (hw : FVec F S50000x64 .f32) (src dst : IVec S850000 32) (nrm : FVec F S850000 .f32) : FVec F S50000x64 .f32 :=
  aggWith (Host.gather gather_S50000x64_S850000x1_S850000x64_1_0_n_n_0_1_164 hw (idCol src)) dst nrm

namespace Take

-- The gathered rows, a row whose wrapped id is outside [0, 49999] replaced by NaNs.
def takeFill (hw : FVec F S50000x64 .f32) (s : IVec S850000 32) : FVec F S850000x64 .f32 :=
  select (broadcastInDim S850000x64 ![0] bcast_S850000_S850000x64_0
      (Host.reduce IntOp.andi
        (andi (cmpi .sge (idCol s) (broadcastInDim S850000x1 ![] bcast_S_S850000x1 (constantI S_ 32 0#32)))
          (cmpi .sle (idCol s)
            (broadcastInDim S850000x1 ![0, 1] bcast_S1x1_S850000x1_0_1 (broadcastInDim S1x1 ![1] bcast_S1_S1x1_1 (constantI S1 32 49999#32)))))
        (constantI S_ 1 1#1) reducesTo_S850000x1_S850000_d1 h_S_))
    (Host.gather gather_S50000x64_S850000x1_S850000x64_1_0_n_n_0_1_164 hw (idCol s))
    (broadcastInDim S850000x64 ![] bcast_S_S850000x64 (constant S_ .f32 0x7FC00000#32))

theorem foldl_andi_ones {ι : Type} (f : ι → BitVec 1) (hf : ∀ n, f n = 1#1) :
    ∀ l : List ι, l.foldl (fun r n => IntOp.andi r (f n)) 1#1 = 1#1
  | [] => rfl
  | a :: l => by rw [List.foldl_cons, hf a]; exact foldl_andi_ones f hf l

theorem select_bcast_ones {s t : Shape} {α : Type} (dims : Fin s.rank → Fin t.rank) (h : s.BroadcastsInDim t dims) (c : IVec s 1)
    (a b : t.Idx → α) (hc : ∀ p, c p = 1#1) : select (broadcastInDim t dims h c) a b = a :=
  funext fun i => if_pos (hc _)

-- With every id in [0, 50000) no id is wrapped and none is outside, so no row is replaced.
theorem aggFill_eq (hw : FVec F S50000x64 .f32) (s d : IVec S850000 32) (n : FVec F S850000 .f32)
    (hr : ∀ p : S850000.Idx, 0 ≤ (s p).toInt ∧ (s p).toInt < 50000) : aggWith (takeFill hw s) d n = aggOf hw s d n := by
  have h0 : (0#32 : BitVec 32).toInt = 0 := by decide
  have h1 : (49999#32 : BitVec 32).toInt = 49999 := by decide
  have e : ∀ p, wrapIds s p = s p := fun p => by
    refine if_neg fun h => ?_
    have := (IntOp.cmpi_slt (x := s p) (y := 0#32)).1 h
    have := (hr p).1
    omega
  refine congrArg (aggWith · d n) (select_bcast_ones _ _ _ _ _ fun p => ?_)
  rw [Host.reduce_eq_foldl]
  refine foldl_andi_ones _ (fun q => ?_) _
  show IntOp.andi (IntOp.cmpi .sge (wrapIds s _) 0#32) (IntOp.cmpi .sle (wrapIds s _) 49999#32) = 1#1
  rw [e, IntOp.andi_eq_one, IntOp.cmpi_sge, IntOp.cmpi_sle, h0, h1]
  exact ⟨(hr _).1, Int.le_of_lt_add_one (hr _).2⟩

theorem ofBuf_toBuf {Val : EltTy → Type} {T : BufTy} (x : StableHlo.TRef sig T) (v : T.Contents Val) : x.ofBuf (x.toBuf v) = v := by
  unfold StableHlo.TRef.ofBuf StableHlo.TRef.toBuf
  rw [cast_cast, cast_eq]

-- A vector [64] reshaped to one row [1, 64], read at (0, j), is the vector at j.
theorem row_of {x : (⟨2, ![1, 64]⟩ : Shape).Idx → EReal} {v : (⟨1, ![64]⟩ : Shape).Idx → EReal}
    (h : x = shapeCast S1x64 v shapeCasts_S64_S1x64) : GnnSpec.row0 x = GnnSpec.vec v := by
  subst h
  funext j
  refine shapeCast_apply v shapeCasts_S64_S1x64 (ix2 0 j) (ix1 j) ?_
  rw [Shape.rowMajor_val_two, Shape.rowMajor_val_one]
  show j.val = 0 * 64 + j.val
  omega

end Take

open Take

theorem layer0_agg (W : Valuation τ sig (Elt F))
    (hr : ∀ p : S850000.Idx, 0 ≤ ((W (Proc.devRef .tc main_v3) : IVec S850000 32) p).toInt ∧ ((W (Proc.devRef .tc main_v3) : IVec S850000 32) p).toInt < 50000) :
    StableHlo.after hostOps1_1 (StableHlo.after hostOps1 W) (Proc.devRef .tc main_v36)
      = aggOf (W (Proc.devRef .tc main_v29) : FVec F S50000x64 .f32) (W (Proc.devRef .tc main_v3) : IVec S850000 32)
          (W (Proc.devRef .tc main_v6) : IVec S850000 32) (W (Proc.devRef .tc main_v28) : FVec F S850000 .f32) := by
  refine .trans ?_ (aggFill_eq _ _ _ _ hr)
  after_results_simp
  simp only [ofBuf_toBuf]
  simp only [StableHlo.TRef.ofBuf, StableHlo.TRef.toBuf, cast_eq]
  rfl

theorem layer0_rows_ideal (W : Valuation τ sig (Elt Ideal)) :
    GnnSpec.row0 (StableHlo.after hostOps1_1 (StableHlo.after hostOps1 W) (Proc.devRef .tc main_v37)) = GnnSpec.vec (W (Proc.devRef .tc main_arg3))
    ∧ GnnSpec.row0 (StableHlo.after hostOps1_1 (StableHlo.after hostOps1 W) (Proc.devRef .tc main_v38)) = GnnSpec.vec (W (Proc.devRef .tc main_arg4))
    ∧ GnnSpec.row0 (StableHlo.after hostOps1_1 (StableHlo.after hostOps1 W) (Proc.devRef .tc main_v39)) = GnnSpec.vec (W (Proc.devRef .tc main_arg5)) :=
  ⟨row_of (by after_results_simp; rfl), row_of (by after_results_simp; rfl), row_of (by after_results_simp; rfl)⟩

theorem layer1_agg (W : Valuation τ sig (Elt F))
    (hr : ∀ p : S850000.Idx, 0 ≤ ((W (Proc.devRef .tc main_v3) : IVec S850000 32) p).toInt ∧ ((W (Proc.devRef .tc main_v3) : IVec S850000 32) p).toInt < 50000) :
    StableHlo.after hostOps3_1 (StableHlo.after hostOps3 W) (Proc.devRef .tc main_v48)
      = aggOf (W (Proc.devRef .tc main_v41) : FVec F S50000x64 .f32) (W (Proc.devRef .tc main_v3) : IVec S850000 32)
          (W (Proc.devRef .tc main_v6) : IVec S850000 32) (W (Proc.devRef .tc main_v28) : FVec F S850000 .f32) := by
  refine .trans ?_ (aggFill_eq _ _ _ _ hr)
  after_results_simp
  simp only [ofBuf_toBuf]
  simp only [StableHlo.TRef.ofBuf, StableHlo.TRef.toBuf, cast_eq]
  rfl

theorem layer1_rows_ideal (W : Valuation τ sig (Elt Ideal)) :
    GnnSpec.row0 (StableHlo.after hostOps3_1 (StableHlo.after hostOps3 W) (Proc.devRef .tc main_v49)) = GnnSpec.vec (W (Proc.devRef .tc main_arg7))
    ∧ GnnSpec.row0 (StableHlo.after hostOps3_1 (StableHlo.after hostOps3 W) (Proc.devRef .tc main_v50)) = GnnSpec.vec (W (Proc.devRef .tc main_arg8))
    ∧ GnnSpec.row0 (StableHlo.after hostOps3_1 (StableHlo.after hostOps3 W) (Proc.devRef .tc main_v51)) = GnnSpec.vec (W (Proc.devRef .tc main_arg9)) :=
  ⟨row_of (by after_results_simp; rfl), row_of (by after_results_simp; rfl), row_of (by after_results_simp; rfl)⟩

theorem layer2_agg (W : Valuation τ sig (Elt F))
    (hr : ∀ p : S850000.Idx, 0 ≤ ((W (Proc.devRef .tc main_v3) : IVec S850000 32) p).toInt ∧ ((W (Proc.devRef .tc main_v3) : IVec S850000 32) p).toInt < 50000) :
    StableHlo.after hostOps5_1 (StableHlo.after hostOps5 W) (Proc.devRef .tc main_v60)
      = aggOf (W (Proc.devRef .tc main_v53) : FVec F S50000x64 .f32) (W (Proc.devRef .tc main_v3) : IVec S850000 32)
          (W (Proc.devRef .tc main_v6) : IVec S850000 32) (W (Proc.devRef .tc main_v28) : FVec F S850000 .f32) := by
  refine .trans ?_ (aggFill_eq _ _ _ _ hr)
  after_results_simp
  simp only [ofBuf_toBuf]
  simp only [StableHlo.TRef.ofBuf, StableHlo.TRef.toBuf, cast_eq]
  rfl

theorem layer2_rows_ideal (W : Valuation τ sig (Elt Ideal)) :
    GnnSpec.row0 (StableHlo.after hostOps5_1 (StableHlo.after hostOps5 W) (Proc.devRef .tc main_v61)) = GnnSpec.vec (W (Proc.devRef .tc main_arg11))
    ∧ GnnSpec.row0 (StableHlo.after hostOps5_1 (StableHlo.after hostOps5 W) (Proc.devRef .tc main_v62)) = GnnSpec.vec (W (Proc.devRef .tc main_arg12))
    ∧ GnnSpec.row0 (StableHlo.after hostOps5_1 (StableHlo.after hostOps5 W) (Proc.devRef .tc main_v63)) = GnnSpec.vec (W (Proc.devRef .tc main_arg13)) :=
  ⟨row_of (by after_results_simp; rfl), row_of (by after_results_simp; rfl), row_of (by after_results_simp; rfl)⟩

end Cert.KernelIdeal.Hand
-- ==== Proof.KI.Whole.lean ====
import proofs.«402883_j70007966925398_1_alg».proof.Proof.KI.Fold
import proofs.«402883_j70007966925398_1_alg».proof.Proof.KI.HostK
import proofs.«402883_j70007966925398_1_alg».proof.Proof.KI.ValLN
import proofs.«402883_j70007966925398_1_alg».proof.Proof.KI.Val6
import proofs.«402883_j70007966925398_1_alg».proof.Proof.KI.Take

noncomputable section

namespace Cert.KernelIdeal.Hand

open Cert.KernelIdeal Cert.KernelIdeal.Gen
open Idealize.ShloMosaic Idealize.ShloMosaic.TcCoe
open Cert

variable (m : (ℓ : Loc nD τ sig) → Buf (Elt Ideal) ℓ) (ρ : Dev nD → PrngReg)

abbrev inp (c : Dev nD) (b : Ref sig .tc) := m ((c : Thread nD τ).loc b)
abbrev eSrc (c : Dev nD) := srcOf (inp m c main_arg1)
abbrev eDst (c : Dev nD) := dstOf (inp m c main_arg1)
abbrev eNrm (c : Dev nD) := nrmOf (F := Ideal) (inp m c main_arg1)

def SrcOk (c : Dev nD) : Prop :=
  ∀ p : S850000.Idx, 0 ≤ (srcOf (m ((c.tc : Thread nD τ).loc main_arg1)) p).toInt ∧ (srcOf (m ((c.tc : Thread nD τ).loc main_arg1)) p).toInt < 50000

-- Three graph-convolution layers, the column means over the nodes, the two-layer head.
def encode (x : FVec Ideal S50000x128 .f32) (e : IVec S2x800000 32) (w0 : FVec Ideal S128x64 .f32) (b0 g0 be0 : FVec Ideal S64 .f32) (w1 : FVec Ideal S64x64 .f32) (b1 g1 be1 : FVec Ideal S64 .f32) (w2 : FVec Ideal S64x64 .f32) (b2 g2 be2 : FVec Ideal S64 .f32) (a14 : FVec Ideal S64x64 .f32) (a15 : FVec Ideal S64 .f32) (a16 : FVec Ideal S64x128 .f32) (a17 : FVec Ideal S128 .f32) : FVec Ideal S1x128 .f32 :=
  let s := srcOf e; let d := dstOf e; let n := nrmOf (F := Ideal) e
  let h0 := GnnSpec.layerArr (aggOf (GnnSpec.prodArr x w0) s d n) (GnnSpec.vec b0) (GnnSpec.vec g0) (GnnSpec.vec be0)
  let h1 := GnnSpec.layerResArr (aggOf (GnnSpec.prodArr h0 w1) s d n) (GnnSpec.vec b1) (GnnSpec.vec g1) (GnnSpec.vec be1) h0
  let h2 := GnnSpec.layerResArr (aggOf (GnnSpec.prodArr h1 w2) s d n) (GnnSpec.vec b2) (GnnSpec.vec g2) (GnnSpec.vec be2) h1
  headOf (GnnSpec.colMeanArr h2) a14 a15 a16 a17

def hid0 (c : Dev nD) : FVec Ideal S50000x64 .f32 :=
  GnnSpec.layerArr (aggOf (GnnSpec.prodArr (inp m c main_arg0) (inp m c main_arg2)) (eSrc m c) (eDst m c) (eNrm m c)) (GnnSpec.vec (inp m c main_arg3)) (GnnSpec.vec (inp m c main_arg4)) (GnnSpec.vec (inp m c main_arg5))

def hid1 (c : Dev nD) : FVec Ideal S50000x64 .f32 :=
  GnnSpec.layerResArr (aggOf (GnnSpec.prodArr (hid0 m c) (inp m c main_arg6)) (eSrc m c) (eDst m c) (eNrm m c)) (GnnSpec.vec (inp m c main_arg7)) (GnnSpec.vec (inp m c main_arg8)) (GnnSpec.vec (inp m c main_arg9)) (hid0 m c)

def hid2 (c : Dev nD) : FVec Ideal S50000x64 .f32 :=
  GnnSpec.layerResArr (aggOf (GnnSpec.prodArr (hid1 m c) (inp m c main_arg10)) (eSrc m c) (eDst m c) (eNrm m c)) (GnnSpec.vec (inp m c main_arg11)) (GnnSpec.vec (inp m c main_arg12)) (GnnSpec.vec (inp m c main_arg13)) (hid1 m c)

namespace Whole

abbrev idRefs : List (Ref sig .tc) := [main_v3, main_v6, main_v28]

abbrev Ids (c : Dev nD) (W : Valuation τ sig (Elt Ideal)) : Prop :=
  W (Proc.devRef .tc main_v3) = eSrc m c ∧ W (Proc.devRef .tc main_v6) = eDst m c ∧ W (Proc.devRef .tc main_v28) = eNrm m c

theorem ids_carry {c : Dev nD} {W W' : Valuation τ sig (Elt Ideal)} (h : Ids m c W)
    (k : ∀ b ∈ idRefs, W' (Proc.devRef .tc b) = W (Proc.devRef .tc b)) : Ids m c W' :=
  ⟨(k main_v3 (by decide)).trans h.1, (k main_v6 (by decide)).trans h.2.1, (k main_v28 (by decide)).trans h.2.2⟩

theorem ids2 (c : Dev nD) : Ids m c (W2 m ρ c) :=
  ids_carry m (W := W1 m ρ c) ⟨host0_src (W0 m ρ c), host0_dst (W0 m ρ c), host0_nrm (W0 m ρ c)⟩ fun b hb =>
    keep2 m ρ c b ((by decide : ∀ b ∈ idRefs, b ≠ main_v29) b hb)

theorem ids6 (c : Dev nD) : Ids m c (W6 m ρ c) :=
  ids_carry m (ids2 m ρ c) fun b hb =>
    have ⟨h3, h4, h5, h6⟩ := (by decide : ∀ b ∈ idRefs, b ∉ hostOps1_W ∧ b ∉ hostOps1_1_W ∧ b ≠ main_v40 ∧ b ≠ main_v41) b hb
    (keep6 m ρ c b h6).trans ((keep5 m ρ c b h5).trans ((keep4 m ρ c b h4).trans (keep3 m ρ c b h3)))

theorem ids10 (c : Dev nD) : Ids m c (W10 m ρ c) :=
  ids_carry m (ids6 m ρ c) fun b hb =>
    have ⟨h7, h8, h9, h10⟩ := (by decide : ∀ b ∈ idRefs, b ∉ hostOps3_W ∧ b ∉ hostOps3_1_W ∧ b ≠ main_v52 ∧ b ≠ main_v53) b hb
    (keep10 m ρ c b h10).trans ((keep9 m ρ c b h9).trans ((keep8 m ρ c b h8).trans (keep7 m ρ c b h7)))

-- One layer from its parts: the product of the incoming rows, its aggregation over in-range source ids, the three rows of bias, scale and shift, then the layer's own arithmetic `L`.
theorem layer {K : ℕ} {L : FVec Ideal S50000x64 .f32 → (Fin 64 → EReal) → (Fin 64 → EReal) → (Fin 64 → EReal) → FVec Ideal S50000x64 .f32}
    {O A P : FVec Ideal S50000x64 .f32} {X X' : FVec Ideal ⟨2, ![50000, K]⟩ .f32} {w w' : FVec Ideal ⟨2, ![K, 64]⟩ .f32}
    {R1 R2 R3 : FVec Ideal S1x64 .f32} {b g be b' g' be' : FVec Ideal S64 .f32}
    {s d : IVec S850000 32} {n : FVec Ideal S850000 .f32} {c : Dev nD}
    (hi : s = eSrc m c ∧ d = eDst m c ∧ n = eNrm m c) (hr : SrcOk m c)
    (hO : O = L A (GnnSpec.row0 R1) (GnnSpec.row0 R2) (GnnSpec.row0 R3))
    (hA : (∀ p : S850000.Idx, 0 ≤ (s p).toInt ∧ (s p).toInt < 50000) → A = aggOf P s d n)
    (hP : P = GnnSpec.prodArr X' w') (hX : X' = X) (hw : w' = w)
    (hR : GnnSpec.row0 R1 = GnnSpec.vec b' ∧ GnnSpec.row0 R2 = GnnSpec.vec g' ∧ GnnSpec.row0 R3 = GnnSpec.vec be')
    (hb : b' = b) (hg : g' = g) (hbe : be' = be) :
    O = L (aggOf (GnnSpec.prodArr X w) (eSrc m c) (eDst m c) (eNrm m c)) (GnnSpec.vec b) (GnnSpec.vec g) (GnnSpec.vec be) := by
  obtain ⟨rfl, rfl, rfl⟩ := hi
  subst hX hw hb hg hbe
  rw [hO, hA hr, hP, hR.1, hR.2.1, hR.2.2]

theorem hid0_eq (c : Dev nD) (hr : SrcOk m c) : W5 m ρ c (Proc.devRef .tc main_v40) = hid0 m c :=
  layer m (L := GnnSpec.layerArr) (ids2 m ρ c) hr ((W5_arr m ρ c 4).trans (arr1_eq (V4 m ρ) c))
    (layer0_agg (F := Ideal) (W2 m ρ c)) ((W2_arr m ρ c 2).trans (arr0_eq (V1 m ρ) c))
    (from0_1 m ρ c main_arg0 (by decide)) (from0_1 m ρ c main_arg2 (by decide)) (layer0_rows_ideal (W2 m ρ c))
    (from0_2 m ρ c main_arg3 (by decide)) (from0_2 m ρ c main_arg4 (by decide)) (from0_2 m ρ c main_arg5 (by decide))

theorem hid1_eq (c : Dev nD) (hr : SrcOk m c) : W9 m ρ c (Proc.devRef .tc main_v52) = hid1 m c :=
  (layer m (L := fun a b g be => GnnSpec.layerResArr a b g be (W8 m ρ c (Proc.devRef .tc main_v40))) (ids6 m ρ c) hr
    ((W9_arr m ρ c 5).trans (arr3_eq (V8 m ρ) c)) (layer1_agg (F := Ideal) (W6 m ρ c)) ((W6_arr m ρ c 2).trans (arr2_eq (V5 m ρ) c))
    (hid0_eq m ρ c hr) (from0_5 m ρ c main_arg6 (by decide)) (layer1_rows_ideal (W6 m ρ c))
    (from0_6 m ρ c main_arg7 (by decide)) (from0_6 m ρ c main_arg8 (by decide)) (from0_6 m ρ c main_arg9 (by decide))).trans
  (congrArg (GnnSpec.layerResArr _ _ _ _) (((keep8 m ρ c main_v40 (by decide)).trans
    ((keep7 m ρ c main_v40 (by decide)).trans (keep6 m ρ c main_v40 (by decide)))).trans (hid0_eq m ρ c hr)))

theorem hid2_eq (c : Dev nD) (hr : SrcOk m c) : W13 m ρ c (Proc.devRef .tc main_v64) = hid2 m c :=
  (layer m (L := fun a b g be => GnnSpec.layerResArr a b g be (W12 m ρ c (Proc.devRef .tc main_v52))) (ids10 m ρ c) hr
    ((W13_arr m ρ c 5).trans (arr5_eq (V12 m ρ) c)) (layer2_agg (F := Ideal) (W10 m ρ c)) ((W10_arr m ρ c 2).trans (arr4_eq (V9 m ρ) c))
    (hid1_eq m ρ c hr) (from0_9 m ρ c main_arg10 (by decide)) (layer2_rows_ideal (W10 m ρ c))
    (from0_10 m ρ c main_arg11 (by decide)) (from0_10 m ρ c main_arg12 (by decide)) (from0_10 m ρ c main_arg13 (by decide))).trans
  (congrArg (GnnSpec.layerResArr _ _ _ _) (((keep12 m ρ c main_v52 (by decide)).trans
    ((keep11 m ρ c main_v52 (by decide)).trans (keep10 m ρ c main_v52 (by decide)))).trans (hid1_eq m ρ c hr)))

theorem pool_eq (c : Dev nD) (hr : SrcOk m c) : W14 m ρ c (Proc.devRef .tc main_v65) = GnnSpec.colMeanArr (hid2 m c) :=
  ((W14_arr m ρ c 1).trans (arr6_eq (V13 m ρ) c)).trans (congrArg GnnSpec.colMeanArr (hid2_eq m ρ c hr))

end Whole

-- With every source id in [0, 50000) the gather replaces no row, so the result is the encoder of the launch arguments.
theorem kernel_value (c : Dev nD) (hr : SrcOk m c) :
    W17 m ρ c (Proc.devRef .tc main_v72)
      = encode (inp m c main_arg0) (inp m c main_arg1) (inp m c main_arg2) (inp m c main_arg3) (inp m c main_arg4) (inp m c main_arg5) (inp m c main_arg6) (inp m c main_arg7) (inp m c main_arg8) (inp m c main_arg9) (inp m c main_arg10) (inp m c main_arg11) (inp m c main_arg12) (inp m c main_arg13) (inp m c main_arg14) (inp m c main_arg15) (inp m c main_arg16) (inp m c main_arg17) := by
  refine (host7_head (F := Ideal) (W14 m ρ c)).trans ?_
  rw [Whole.pool_eq m ρ c hr, from0_14 m ρ c main_arg14 (by decide), from0_14 m ρ c main_arg15 (by decide),
    from0_14 m ρ c main_arg16 (by decide), from0_14 m ρ c main_arg17 (by decide)]
  rfl

end Cert.KernelIdeal.Hand

end
-- ==== Proof.Bridge.lean ====
import proofs.«402883_j70007966925398_1_alg».proof.Proof.KI.Whole
import proofs.«402883_j70007966925398_1_alg».proof.Proof.RefChain

noncomputable section

namespace Cert.Bridge

open Idealize.ShloMosaic
open Cert.KernelIdeal (S2x800000 S850000 S850000x1 S50000 S50000x64 S50000x128 S128x64 S64x64 S64 S64x128 S128 S1x64 S1x128)

theorem encode_eq (x : FVec Ideal S50000x128 .f32) (e : IVec S2x800000 32)
    (w0 : FVec Ideal S128x64 .f32) (b0 g0 be0 : FVec Ideal S64 .f32)
    (w1 : FVec Ideal S64x64 .f32) (b1 g1 be1 : FVec Ideal S64 .f32)
    (w2 : FVec Ideal S64x64 .f32) (b2 g2 be2 : FVec Ideal S64 .f32)
    (a14 : FVec Ideal S64x64 .f32) (a15 : FVec Ideal S64 .f32) (a16 : FVec Ideal S64x128 .f32) (a17 : FVec Ideal S128 .f32) :
    Cert.ReferenceIdeal.Hand.headOfR (F := Ideal)
        (Cert.GnnSpec.colMeanArr
          (Cert.ReferenceIdeal.Hand.specStep
            (Cert.ReferenceIdeal.Hand.specStep (Cert.ReferenceIdeal.Hand.specH0 x e w0 b0 g0 be0) e w1 b1 g1 be1) e w2 b2 g2 be2))
        a14 a15 a16 a17
      = Cert.KernelIdeal.Hand.encode x e w0 b0 g0 be0 w1 b1 g1 be1 w2 b2 g2 be2 a14 a15 a16 a17 := rfl

end Cert.Bridge

end
-- ==== Proof.Final.lean ====
import proofs.«402883_j70007966925398_1_alg».proof.Defs
import proofs.«402883_j70007966925398_1_alg».proof.Proof.K.Run
import proofs.«402883_j70007966925398_1_alg».proof.Proof.KI.Run
import proofs.«402883_j70007966925398_1_alg».proof.Proof.PreRange
import proofs.«402883_j70007966925398_1_alg».proof.Proof.RefRun
import proofs.«402883_j70007966925398_1_alg».proof.Proof.Bridge

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Hand.ref_run (F := Ideal) m ρ)

-- The one rewrite names the reciprocal of the node count, 1/50000.
theorem preserves : Cert.preserves_Kernel_KernelIdeal :=
  IdealRules.named_const.statement Cert.KernelIdeal.κ "inv_50000" .f32 0x37A7C5AC#32 ((1 / 50000 : ℝ) : EReal) rfl

-- Each program ends at the encoder of its own arguments, and the arguments agree.
theorem algebraic : Cert.algebraic_KernelIdeal_ReferenceIdeal := by
  intro m ρ m' ρ' hpre hagree
  refine ⟨fun c => Cert.KernelIdeal.Hand.W17 m ρ c (Proc.devRef .tc Cert.KernelIdeal.main_v72), Cert.KernelIdeal.Hand.run_result m ρ, ?_⟩
  refine (θ_run Cert.ReferenceIdeal.defs _ _).mono (fun _ h c => ⟨(h c).1.trans ?_, (h c).2⟩)
    (Cert.ReferenceIdeal.Hand.ref_run (F := Ideal) m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  rw [Cert.ReferenceIdeal.Hand.refMain_eq, Cert.Bridge.encode_eq]
  exact (Cert.KernelIdeal.Hand.kernel_value m ρ c (Cert.KernelIdeal.Hand.src_in_range _ _ _ _ _ _ _ _ _ _ _ _ _ _ _ _ _ _ (hpre c))).symm

end Cert.Proof

end
-- ==== Proof.lean ====
import proofs.«402883_j70007966925398_1_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
